-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v146)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v146) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x1600000 : Shape := ⟨2, ![2, 1600000]⟩
abbrev S1600000 : Shape := ⟨1, ![1600000]⟩
abbrev S100000 : Shape := ⟨1, ![100000]⟩
abbrev S16x8 : Shape := ⟨2, ![16, 8]⟩
abbrev S8x8 : Shape := ⟨2, ![8, 8]⟩
abbrev S16x32 : Shape := ⟨2, ![16, 32]⟩
abbrev S32 : Shape := ⟨1, ![32]⟩
abbrev S32x64 : Shape := ⟨2, ![32, 64]⟩
abbrev S3x32x64 : Shape := ⟨3, ![3, 32, 64]⟩
abbrev S64 : Shape := ⟨1, ![64]⟩
abbrev S64x64 : Shape := ⟨2, ![64, 64]⟩
abbrev S3x64x64 : Shape := ⟨3, ![3, 64, 64]⟩
abbrev S64x10 : Shape := ⟨2, ![64, 10]⟩
abbrev S10 : Shape := ⟨1, ![10]⟩
abbrev S_ : Shape := ⟨0, ![]⟩
abbrev S100000x1 : Shape := ⟨2, ![100000, 1]⟩

class Facts : Prop where
  bcast_S_S16x8 : S_.BroadcastsInDim S16x8 (![] : Fin 0 → Fin S16x8.rank)
  reducesTo_S16x8_S_d0_1 : S16x8.ReducesTo [0, 1] S_
  h_S_ : 0 < S_.numel
  bcast_S_S8x8 : S_.BroadcastsInDim S8x8 (![] : Fin 0 → Fin S8x8.rank)
  reducesTo_S8x8_S_d0_1 : S8x8.ReducesTo [0, 1] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S3x32x64 : S_.BroadcastsInDim S3x32x64 (![] : Fin 0 → Fin S3x32x64.rank)
  reducesTo_S3x32x64_S_d0_1_2 : S3x32x64.ReducesTo [0, 1, 2] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_
  slices_S100000x2_S100000x1_0_0 : S100000x2.Slices ![0, 0] S100000x1
  shapeCasts_S100000x1_S100000 : S100000x1.ShapeCasts S100000
  bcast_S_S100000 : S_.BroadcastsInDim S100000 (![] : Fin 0 → Fin S100000.rank)
  reducesTo_S100000_S_d0 : S100000.ReducesTo [0] S_
  slices_S100000x2_S100000x1_0_1 : S100000x2.Slices ![0, 1] S100000x1

variable [Facts]

def fn_part4 {F : FTy → Type} [FloatOps F] (main_arg0 : IVec S100000x2 32) (main_v64 : IVec S_ 1) (main_v68 : IVec S100000 1) : IVec S_ 1 :=
  let main_c_25 : IVec S_ 1 := constantI S_ 1 1#1
  let main_v69 : IVec S_ 1 := (fun x v => Host.reduce IntOp.andi x v reducesTo_S100000_S_d0 h_S_) main_v68 main_c_25
  let main_v70 : IVec S_ 1 := andi main_v64 main_v69
  let main_v71 : IVec S100000x1 32 := (extractStridedSlice S100000x1 ![0, 1] · slices_S100000x2_S100000x1_0_1) main_arg0
  let main_v72 : IVec S100000 32 := shapeCast S100000 main_v71 shapeCasts_S100000x1_S100000
  let main_c_26 : IVec S_ 32 := constantI S_ 32 0#32
  let main_v73 : IVec S100000 32 := broadcastInDim S100000 ![] bcast_S_S100000 main_c_26
  let main_v74 : IVec S100000 1 := cmpi .sge main_v72 main_v73
  let main_c_27 : IVec S_ 1 := constantI S_ 1 1#1
  let main_v75 : IVec S_ 1 := (fun x v => Host.reduce IntOp.andi x v reducesTo_S100000_S_d0 h_S_) main_v74 main_c_27
  let main_v76 : IVec S_ 1 := andi main_v70 main_v75
  let main_v77 : IVec S100000x1 32 := (extractStridedSlice S100000x1 ![0, 1] · slices_S100000x2_S100000x1_0_1) main_arg0
  let main_v78 : IVec S100000 32 := shapeCast S100000 main_v77 shapeCasts_S100000x1_S100000
  let main_c_28 : IVec S_ 32 := constantI S_ 32 8#32
  let main_v79 : IVec S100000 32 := broadcastInDim S100000 ![] bcast_S_S100000 main_c_28
  let main_v80 : IVec S100000 1 := cmpi .slt main_v78 main_v79
  let main_c_29 : IVec S_ 1 := constantI S_ 1 1#1
  let main_v81 : IVec S_ 1 := (fun x v => Host.reduce IntOp.andi x v reducesTo_S100000_S_d0 h_S_) main_v80 main_c_29
  let main_v82 : IVec S_ 1 := andi main_v76 main_v81
  main_v82

def fn_part3 {F : FTy → Type} [FloatOps F] (main_arg0 : IVec S100000x2 32) (main_arg15 : FVec F S10 .f32) (main_v48 : IVec S_ 1) (main_v49 : FVec F S64x10 .f32) (main_v50 : FVec F S64x10 .f32) : IVec S_ 1 :=
  let main_v51 : IVec S64x10 1 := cmpf .olt main_v49 main_v50
  let main_c_19 : IVec S_ 1 := constantI S_ 1 1#1
  let main_v52 : IVec S_ 1 := (fun x v => Host.reduce IntOp.andi x v reducesTo_S64x10_S_d0_1 h_S_) main_v51 main_c_19
  let main_v53 : IVec S_ 1 := andi main_v48 main_v52
  let main_v54 : FVec F S10 .f32 := Host.absf main_arg15
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  let main_v59 : IVec S100000x1 32 := (extractStridedSlice S100000x1 ![0, 0] · slices_S100000x2_S100000x1_0_0) main_arg0
  let main_v60 : IVec S100000 32 := shapeCast S100000 main_v59 shapeCasts_S100000x1_S100000
  let main_c_22 : IVec S_ 32 := constantI S_ 32 0#32
  let main_v61 : IVec S100000 32 := broadcastInDim S100000 ![] bcast_S_S100000 main_c_22
  let main_v62 : IVec S100000 1 := cmpi .sge main_v60 main_v61
  let main_c_23 : IVec S_ 1 := constantI S_ 1 1#1
  let main_v63 : IVec S_ 1 := (fun x v => Host.reduce IntOp.andi x v reducesTo_S100000_S_d0 h_S_) main_v62 main_c_23
  let main_v64 : IVec S_ 1 := andi main_v58 main_v63
  let main_v65 : IVec S100000x1 32 := (extractStridedSlice S100000x1 ![0, 0] · slices_S100000x2_S100000x1_0_0) main_arg0
  let main_v66 : IVec S100000 32 := shapeCast S100000 main_v65 shapeCasts_S100000x1_S100000
  let main_c_24 : IVec S_ 32 := constantI S_ 32 16#32
  let main_v67 : IVec S100000 32 := broadcastInDim S100000 ![] bcast_S_S100000 main_c_24
  let main_v68 : IVec S100000 1 := cmpi .slt main_v66 main_v67
  fn_part4 (F := F) main_arg0 main_v64 main_v68

def fn_part2 {F : FTy → Type} [FloatOps F] (main_arg0 : IVec S100000x2 32) (main_arg11 : FVec F S64x64 .f32) (main_arg12 : FVec F S3x64x64 .f32) (main_arg13 : FVec F S64 .f32) (main_arg14 : FVec F S64x10 .f32) (main_arg15 : FVec F S10 .f32) (main_v33 : IVec S_ 1) : IVec S_ 1 :=
  let main_v34 : FVec F S64x64 .f32 := Host.absf main_arg11
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S3x64x64 .f32 := Host.absf main_arg12
  let main_cst_14 : FVec F S_ .f32 := constant S_ .f32 0x7F800000#32
  let main_v40 : FVec F S3x64x64 .f32 := broadcastInDim S3x64x64 ![] bcast_S_S3x64x64 main_cst_14
  let main_v41 : IVec S3x64x64 1 := cmpf .olt main_v39 main_v40
  let main_c_15 : IVec S_ 1 := constantI S_ 1 1#1
  let main_v42 : IVec S_ 1 := (fun x v => Host.reduce IntOp.andi x v reducesTo_S3x64x64_S_d0_1_2 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x10 .f32 := Host.absf main_arg14
  let main_cst_18 : FVec F S_ .f32 := constant S_ .f32 0x7F800000#32
  let main_v50 : FVec F S64x10 .f32 := broadcastInDim S64x10 ![] bcast_S_S64x10 main_cst_18
  fn_part3 (F := F) main_arg0 main_arg15 main_v48 main_v49 main_v50

def fn_part1 {F : FTy → Type} [FloatOps F] (main_arg0 : IVec S100000x2 32) (main_arg8 : FVec F S32x64 .f32) (main_arg9 : FVec F S3x32x64 .f32) (main_arg10 : FVec F S64 .f32) (main_arg11 : FVec F S64x64 .f32) (main_arg12 : FVec F S3x64x64 .f32) (main_arg13 : FVec F S64 .f32) (main_arg14 : FVec F S64x10 .f32) (main_arg15 : FVec F S10 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x64 .f32 := Host.absf main_arg8
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S3x32x64 .f32 := Host.absf main_arg9
  let main_cst_8 : FVec F S_ .f32 := constant S_ .f32 0x7F800000#32
  let main_v25 : FVec F S3x32x64 .f32 := broadcastInDim S3x32x64 ![] bcast_S_S3x32x64 main_cst_8
  let main_v26 : IVec S3x32x64 1 := cmpf .olt main_v24 main_v25
  let main_c_9 : IVec S_ 1 := constantI S_ 1 1#1
  let main_v27 : IVec S_ 1 := (fun x v => Host.reduce IntOp.andi x v reducesTo_S3x32x64_S_d0_1_2 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg0 main_arg11 main_arg12 main_arg13 main_arg14 main_arg15 main_v33

def fn {F : FTy → Type} [FloatOps F] (main_arg0 : IVec S100000x2 32) (main_arg1 : IVec S2x1600000 32) (main_arg2 : IVec S1600000 32) (main_arg3 : IVec S100000 32) (main_arg4 : FVec F S16x8 .f32) (main_arg5 : FVec F S8x8 .f32) (main_arg6 : FVec F S16x32 .f32) (main_arg7 : FVec F S32 .f32) (main_arg8 : FVec F S32x64 .f32) (main_arg9 : FVec F S3x32x64 .f32) (main_arg10 : FVec F S64 .f32) (main_arg11 : FVec F S64x64 .f32) (main_arg12 : FVec F S3x64x64 .f32) (main_arg13 : FVec F S64 .f32) (main_arg14 : FVec F S64x10 .f32) (main_arg15 : FVec F S10 .f32) : IVec S_ 1 :=
  let main_v0 : FVec F S16x8 .f32 := Host.absf main_arg4
  let main_cst : FVec F S_ .f32 := constant S_ .f32 0x7F800000#32
  let main_v1 : FVec F S16x8 .f32 := broadcastInDim S16x8 ![] bcast_S_S16x8 main_cst
  let main_v2 : IVec S16x8 1 := cmpf .olt main_v0 main_v1
  let main_c : IVec S_ 1 := constantI S_ 1 1#1
  let main_v3 : IVec S_ 1 := (fun x v => Host.reduce IntOp.andi x v reducesTo_S16x8_S_d0_1 h_S_) main_v2 main_c
  let main_v4 : FVec F S8x8 .f32 := Host.absf main_arg5
  let main_cst_0 : FVec F S_ .f32 := constant S_ .f32 0x7F800000#32
  let main_v5 : FVec F S8x8 .f32 := broadcastInDim S8x8 ![] bcast_S_S8x8 main_cst_0
  let main_v6 : IVec S8x8 1 := cmpf .olt main_v4 main_v5
  let main_c_1 : IVec S_ 1 := constantI S_ 1 1#1
  let main_v7 : IVec S_ 1 := (fun x v => Host.reduce IntOp.andi x v reducesTo_S8x8_S_d0_1 h_S_) main_v6 main_c_1
  let main_v8 : IVec S_ 1 := andi main_v3 main_v7
  let main_v9 : FVec F S16x32 .f32 := Host.absf main_arg6
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S32 .f32 := Host.absf main_arg7
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg0 main_arg8 main_arg9 main_arg10 main_arg11 main_arg12 main_arg13 main_arg14 main_arg15 main_v13 main_v16
-- ==== Kernel.lean ====
abbrev S100000x2 : Shape := ⟨2, ![100000, 2]⟩
abbrev S2x1600000 : Shape := ⟨2, ![2, 1600000]⟩
abbrev S1600000 : Shape := ⟨1, ![1600000]⟩
abbrev S100000 : Shape := ⟨1, ![100000]⟩
abbrev S16x8 : Shape := ⟨2, ![16, 8]⟩
abbrev S8x8 : Shape := ⟨2, ![8, 8]⟩
abbrev S16x32 : Shape := ⟨2, ![16, 32]⟩
abbrev S32 : Shape := ⟨1, ![32]⟩
abbrev S32x64 : Shape := ⟨2, ![32, 64]⟩
abbrev S3x32x64 : Shape := ⟨3, ![3, 32, 64]⟩
abbrev S64 : Shape := ⟨1, ![64]⟩
abbrev S64x64 : Shape := ⟨2, ![64, 64]⟩
abbrev S3x64x64 : Shape := ⟨3, ![3, 64, 64]⟩
abbrev S64x10 : Shape := ⟨2, ![64, 10]⟩
abbrev S10 : Shape := ⟨1, ![10]⟩
abbrev S1x32 : Shape := ⟨2, ![1, 32]⟩
abbrev S100000x32 : Shape := ⟨2, ![100000, 32]⟩
abbrev S10000x2 : Shape := ⟨2, ![10000, 2]⟩
abbrev S10000x32 : Shape := ⟨2, ![10000, 32]⟩
abbrev S10000x1 : Shape := ⟨2, ![10000, 1]⟩
abbrev S10000x16 : Shape := ⟨2, ![10000, 16]⟩
abbrev S10000x8 : Shape := ⟨2, ![10000, 8]⟩
abbrev S1x1600000 : Shape := ⟨2, ![1, 1600000]⟩
abbrev S_ : Shape := ⟨0, ![]⟩
abbrev S1600000x1 : Shape := ⟨2, ![1600000, 1]⟩
abbrev S1600000x32 : Shape := ⟨2, ![1600000, 32]⟩
abbrev S100000x1 : Shape := ⟨2, ![100000, 1]⟩
abbrev S1x32x64 : Shape := ⟨3, ![1, 32, 64]⟩
abbrev S128x64 : Shape := ⟨2, ![128, 64]⟩
abbrev S1x64 : Shape := ⟨2, ![1, 64]⟩
abbrev S100000x64 : Shape := ⟨2, ![100000, 64]⟩
abbrev S5000x32 : Shape := ⟨2, ![5000, 32]⟩
abbrev S5000x64 : Shape := ⟨2, ![5000, 64]⟩
abbrev S5000x128 : Shape := ⟨2, ![5000, 128]⟩
abbrev S1600000x64 : Shape := ⟨2, ![1600000, 64]⟩
abbrev S1x64x64 : Shape := ⟨3, ![1, 64, 64]⟩
abbrev S256x64 : Shape := ⟨2, ![256, 64]⟩
abbrev S5000x256 : Shape := ⟨2, ![5000, 256]⟩
abbrev S1x10 : Shape := ⟨2, ![1, 10]⟩
abbrev S512x10 : Shape := ⟨2, ![512, 10]⟩
abbrev S10000x64 : Shape := ⟨2, ![10000, 64]⟩
abbrev S512x64 : Shape := ⟨2, ![512, 64]⟩
abbrev S10000x512 : Shape := ⟨2, ![10000, 512]⟩

abbrev nBuf : Space → Nat
  | .hbm => 191
  | .vmem => 41
  | .smem => 0
  | _ => 0

abbrev hbmTy0_0 (i : Nat) : BufTy := match i % 128 with
  | 0 => ⟨S100000x2, .i32⟩
  | 1 => ⟨S2x1600000, .i32⟩
  | 2 => ⟨S1600000, .i32⟩
  | 3 => ⟨S100000, .i32⟩
  | 4 => ⟨S16x8, .f32⟩
  | 5 => ⟨S8x8, .f32⟩
  | 6 => ⟨S16x32, .f32⟩
  | 7 => ⟨S32, .f32⟩
  | 8 => ⟨S32x64, .f32⟩
  | 9 => ⟨S3x32x64, .f32⟩
  | 10 => ⟨S64, .f32⟩
  | 11 => ⟨S64x64, .f32⟩
  | 12 => ⟨S3x64x64, .f32⟩
  | 13 => ⟨S64, .f32⟩
  | 14 => ⟨S64x10, .f32⟩
  | 15 => ⟨S10, .f32⟩
  | 16 => ⟨S1x32, .f32⟩
  | 17 => ⟨S100000x32, .f32⟩
  | 18 => ⟨S1x1600000, .i32⟩
  | 19 => ⟨S1600000, .i32⟩
  | 20 => ⟨S1x1600000, .i32⟩
  | 21 => ⟨S1600000, .i32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x32, .f32⟩
  | 31 => ⟨S_, .i32⟩
  | 32 => ⟨S1600000, .i32⟩
  | 33 => ⟨S1600000, .i1⟩
  | 34 => ⟨S1600000, .f32⟩
  | 35 => ⟨S1600000x1, .f32⟩
  | 36 => ⟨S1600000x32, .f32⟩
  | 37 => ⟨S1600000x32, .f32⟩
  | 38 => ⟨S_, .f32⟩
  | 39 => ⟨S100000x32, .f32⟩
  | 40 => ⟨S1600000x1, .i32⟩
  | 41 => ⟨S100000x32, .f32⟩
  | 42 => ⟨S_, .f32⟩
  | 43 => ⟨S100000, .f32⟩
  | 44 => ⟨S1600000x1, .i32⟩
  | 45 => ⟨S100000, .f32⟩
  | 46 => ⟨S_, .f32⟩
  | 47 => ⟨S100000, .f32⟩
  | 48 => ⟨S100000, .f32⟩
  | 49 => ⟨S100000x1, .f32⟩
  | 50 => ⟨S100000x32, .f32⟩
  | 51 => ⟨S100000x32, .f32⟩
  | 52 => ⟨S_, .i32⟩
  | 53 => ⟨S1600000, .i32⟩
  | 54 => ⟨S1600000, .i1⟩
  | 55 => ⟨S1600000, .f32⟩
  | 56 => ⟨S1600000x1, .f32⟩
  | 57 => ⟨S1600000x32, .f32⟩
  | 58 => ⟨S1600000x32, .f32⟩
  | 59 => ⟨S_, .f32⟩
  | 60 => ⟨S100000x32, .f32⟩
  | 61 => ⟨S1600000x1, .i32⟩
  | 62 => ⟨S100000x32, .f32⟩
  | 63 => ⟨S_, .f32⟩
  | 64 => ⟨S100000, .f32⟩
  | 65 => ⟨S1600000x1, .i32⟩
  | 66 => ⟨S100000, .f32⟩
  | 67 => ⟨S_, .f32⟩
  | 68 => ⟨S100000, .f32⟩
  | 69 => ⟨S100000, .f32⟩
  | 70 => ⟨S100000x1, .f32⟩
  | 71 => ⟨S100000x32, .f32⟩
  | 72 => ⟨S100000x32, .f32⟩
  | 73 => ⟨S_, .i32⟩
  | 74 => ⟨S1600000, .i32⟩
  | 75 => ⟨S1600000, .i1⟩
  | 76 => ⟨S1600000, .f32⟩
  | 77 => ⟨S1600000x1, .f32⟩
  | 78 => ⟨S1600000x32, .f32⟩
  | 79 => ⟨S1600000x32, .f32⟩
  | 80 => ⟨S_, .f32⟩
  | 81 => ⟨S100000x32, .f32⟩
  | 82 => ⟨S1600000x1, .i32⟩
  | 83 => ⟨S100000x32, .f32⟩
  | 84 => ⟨S_, .f32⟩
  | 85 => ⟨S100000, .f32⟩
  | 86 => ⟨S1600000x1, .i32⟩
  | 87 => ⟨S100000, .f32⟩
  | 88 => ⟨S_, .f32⟩
  | 89 => ⟨S100000, .f32⟩
  | 90 => ⟨S100000, .f32⟩
  | 91 => ⟨S100000x1, .f32⟩
  | 92 => ⟨S100000x32, .f32⟩
  | 93 => ⟨S100000x32, .f32⟩
  | 94 => ⟨S1x32x64, .f32⟩
  | 95 => ⟨S32x64, .f32⟩
  | 96 => ⟨S1x32x64, .f32⟩
  | 97 => ⟨S32x64, .f32⟩
  | 98 => ⟨S1x32x64, .f32⟩
  | 99 => ⟨S32x64, .f32⟩
  | 100 => ⟨S128x64, .f32⟩
  | 101 => ⟨S1x64, .f32⟩
  | 102 => ⟨S100000x64, .f32⟩
  | 103 => ⟨S1x1600000, .i32⟩
  | 104 => ⟨S1600000, .i32⟩
  | 105 => ⟨S1x1600000, .i32⟩
  | 106 => ⟨S1600000, .i32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x64, .f32⟩
  | 116 => ⟨S_, .i32⟩
  | 117 => ⟨S1600000, .i32⟩
  | 118 => ⟨S1600000, .i1⟩
  | 119 => ⟨S1600000, .f32⟩
  | 120 => ⟨S1600000x1, .f32⟩
  | 121 => ⟨S1600000x64, .f32⟩
  | 122 => ⟨S1600000x64, .f32⟩
  | 123 => ⟨S_, .f32⟩
  | 124 => ⟨S100000x64, .f32⟩
  | 125 => ⟨S1600000x1, .i32⟩
  | 126 => ⟨S100000x64, .f32⟩
  | 127 => ⟨S_, .f32⟩
  | _ => ⟨S100000x2, .i32⟩

abbrev hbmTy0_1 (i : Nat) : BufTy := match i % 128 with
  | 0 => ⟨S100000, .f32⟩
  | 1 => ⟨S1600000x1, .i32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x64, .f32⟩
  | 8 => ⟨S100000x64, .f32⟩
  | 9 => ⟨S_, .i32⟩
  | 10 => ⟨S1600000, .i32⟩
  | 11 => ⟨S1600000, .i1⟩
  | 12 => ⟨S1600000, .f32⟩
  | 13 => ⟨S1600000x1, .f32⟩
  | 14 => ⟨S1600000x64, .f32⟩
  | 15 => ⟨S1600000x64, .f32⟩
  | 16 => ⟨S_, .f32⟩
  | 17 => ⟨S100000x64, .f32⟩
  | 18 => ⟨S1600000x1, .i32⟩
  | 19 => ⟨S100000x64, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .f32⟩
  | 27 => ⟨S100000x1, .f32⟩
  | 28 => ⟨S100000x64, .f32⟩
  | 29 => ⟨S100000x64, .f32⟩
  | 30 => ⟨S_, .i32⟩
  | 31 => ⟨S1600000, .i32⟩
  | 32 => ⟨S1600000, .i1⟩
  | 33 => ⟨S1600000, .f32⟩
  | 34 => ⟨S1600000x1, .f32⟩
  | 35 => ⟨S1600000x64, .f32⟩
  | 36 => ⟨S1600000x64, .f32⟩
  | 37 => ⟨S_, .f32⟩
  | 38 => ⟨S100000x64, .f32⟩
  | 39 => ⟨S1600000x1, .i32⟩
  | 40 => ⟨S100000x64, .f32⟩
  | 41 => ⟨S_, .f32⟩
  | 42 => ⟨S100000, .f32⟩
  | 43 => ⟨S1600000x1, .i32⟩
  | 44 => ⟨S100000, .f32⟩
  | 45 => ⟨S_, .f32⟩
  | 46 => ⟨S100000, .f32⟩
  | 47 => ⟨S100000, .f32⟩
  | 48 => ⟨S100000x1, .f32⟩
  | 49 => ⟨S100000x64, .f32⟩
  | 50 => ⟨S100000x64, .f32⟩
  | 51 => ⟨S1x64x64, .f32⟩
  | 52 => ⟨S64x64, .f32⟩
  | 53 => ⟨S1x64x64, .f32⟩
  | 54 => ⟨S64x64, .f32⟩
  | 55 => ⟨S1x64x64, .f32⟩
  | 56 => ⟨S64x64, .f32⟩
  | 57 => ⟨S256x64, .f32⟩
  | 58 => ⟨S1x64, .f32⟩
  | 59 => ⟨S100000x64, .f32⟩
  | 60 => ⟨S100000x1, .i32⟩
  | 61 => ⟨S1x10, .f32⟩
  | 62 => ⟨S512x10, .f32⟩
  | _ => ⟨S100000x2, .i32⟩

abbrev hbmTy (i : Nat) : BufTy := match i / 128 with
  | 0 => hbmTy0_0 i
  | 1 => hbmTy0_1 i
  | _ => ⟨S100000x2, .i32⟩

abbrev bufTy : (tb : Table) → Fin (tcTables nBuf tb) → BufTy
  | .hbm, ⟨i, _⟩ => hbmTy i
  | .local _ .vmem, ⟨0, _⟩ => ⟨S10000x2, .i32⟩
  | .local _ .vmem, ⟨1, _⟩ => ⟨S10000x2, .i32⟩
  | .local _ .vmem, ⟨2, _⟩ => ⟨S16x8, .f32⟩
  | .local _ .vmem, ⟨3, _⟩ => ⟨S8x8, .f32⟩
  | .local _ .vmem, ⟨4, _⟩ => ⟨S16x32, .f32⟩
  | .local _ .vmem, ⟨5, _⟩ => ⟨S1x32, .f32⟩
  | .local _ .vmem, ⟨6, _⟩ => ⟨S10000x32, .f32⟩
  | .local _ .vmem, ⟨7, _⟩ => ⟨S10000x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S128x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S256x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S10000x64, .f32⟩
  | .local _ .vmem, ⟨33, _⟩ => ⟨S10000x64, .f32⟩
  | .local _ .vmem, ⟨34, _⟩ => ⟨S10000x1, .i32⟩
  | .local _ .vmem, ⟨35, _⟩ => ⟨S10000x1, .i32⟩
  | .local _ .vmem, ⟨36, _⟩ => ⟨S64x10, .f32⟩
  | .local _ .vmem, ⟨37, _⟩ => ⟨S1x10, .f32⟩
  | .local _ .vmem, ⟨38, _⟩ => ⟨S512x10, .f32⟩
  | .local _ .vmem, ⟨39, _⟩ => ⟨S512x64, .f32⟩
  | .local _ .vmem, ⟨40, _⟩ => ⟨S512x64, .f32⟩
  | _, _ => ⟨S100000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_v7 : Ref sig .tc := ⟨.hbm, 24, rfl⟩
abbrev main_c_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_10 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_12 : Ref sig .tc := ⟨.hbm, 107, rfl⟩
abbrev main_v77 : Ref sig .tc := ⟨.hbm, 108, rfl⟩
abbrev main_v78 : Ref sig .tc := ⟨.hbm, 109, rfl⟩
abbrev main_c_13 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_14 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_15 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_16 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_17 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_c_18 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_19 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_20 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_21 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_c_22 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_23 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_24 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_cst_25 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_scratch0 : Ref sig .tc := ⟨.vmem, 39, rfl⟩
abbrev cc3_scratch1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem5_0 : DmaSem sig := 29
abbrev cc2_sem6_0 : DmaSem sig := 30
abbrev cc2_sem6_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S256x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v27 : BitVec 1 := Scalar.cmpi .eq arg0 c9_i32
  let v28 : BitVec 32 := Scalar.extui v27
  let c0_i32_14 : BitVec 32 := 0#32
  let v29 : BitVec 1 := Scalar.cmpi .ne v28 c0_i32_14
  v29

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  shapeCasts_S32_S1x32 : S32.ShapeCasts S1x32
  inb_S10000x2_S10000x1_0_0 : ∀ a, (![0, 0] : Fin 2 → Nat) a + S10000x1.size a ≤ S10000x2.size a
  h_S10000x1 : 0 < S10000x1.numel
  inb_S10000x2_S10000x1_0_1 : ∀ a, (![0, 1] : Fin 2 → Nat) a + S10000x1.size a ≤ S10000x2.size a
  iota_S10000x16_d1_w32 : S10000x16.Iotas .tc 32 [1]
  broadcasts_S10000x1_S10000x16 : S10000x1.Broadcasts S10000x16
  natLt_1_32 : 1 < 32
  bitsLt_bf16_f32 : FTy.bits .bf16 < FTy.bits .f32
  inb_S16x8_S16x8_0_0 : ∀ a, (![0, 0] : Fin 2 → Nat) a + S16x8.size a ≤ S16x8.size a
  h_S16x8 : 0 < S16x8.numel
  iota_S10000x8_d1_w32 : S10000x8.Iotas .tc 32 [1]
  broadcasts_S10000x1_S10000x8 : S10000x1.Broadcasts S10000x8
  inb_S8x8_S8x8_0_0 : ∀ a, (![0, 0] : Fin 2 → Nat) a + S8x8.size a ≤ S8x8.size a
  h_S8x8 : 0 < S8x8.numel
  concatenates_S10000x8_S10000x8_S10000x16_d1 : Shape.Concatenates [S10000x8, S10000x8] S10000x16 1
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  slices_S3x32x64_S1x32x64_0_0_0 : S3x32x64.Slices ![0, 0, 0] S1x32x64
  shapeCasts_S1x32x64_S32x64 : S1x32x64.ShapeCasts S32x64
  slices_S3x32x64_S1x32x64_1_0_0 : S3x32x64.Slices ![1, 0, 0] S1x32x64
  slices_S3x32x64_S1x32x64_2_0_0 : S3x32x64.Slices ![2, 0, 0] S1x32x64
  concatenates_S32x64_S32x64_S32x64_S32x64_S128x64_d0 : Shape.Concatenates [S32x64, S32x64, S32x64, S32x64] S128x64 0
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  concatenates_S5000x32_S5000x32_S5000x32_S5000x32_S5000x128_d1 : Shape.Concatenates [S5000x32, S5000x32, S5000x32, S5000x32] S5000x128 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64x64_S1x64x64_2_0_0 : S3x64x64.Slices ![2, 0, 0] S1x64x64
  concatenates_S64x64_S64x64_S64x64_S64x64_S256x64_d0 : Shape.Concatenates [S64x64, S64x64, S64x64, S64x64] S256x64 0
  shapeCasts_S5000x64_S5000x64 : S5000x64.ShapeCasts S5000x64
  concatenates_S5000x64_S5000x64_S5000x64_S5000x64_S5000x256_d1 : Shape.Concatenates [S5000x64, S5000x64, S5000x64, S5000x64] S5000x256 1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  shapeCasts_S100000_S100000x1 : S100000.ShapeCasts S100000x1
  shapeCasts_S10_S1x10 : S10.ShapeCasts S1x10
  inb_S512x64_S512x64_0_0 : ∀ a, (![0, 0] : Fin 2 → Nat) a + S512x64.size a ≤ S512x64.size a
  h_S512x64 : 0 < S512x64.numel
  shapeCasts_S512x64_S512x64 : S512x64.ShapeCasts S512x64
  iota_S10000x512_d1_w32 : S10000x512.Iotas .tc 32 [1]
  inb_S10000x1_S10000x1_0_0 : ∀ a, (![0, 0] : Fin 2 → Nat) a + S10000x1.size a ≤ S10000x1.size a
  shapeCasts_S10000x1_S10000x1 : S10000x1.ShapeCasts S10000x1
  broadcasts_S10000x1_S10000x512 : S10000x1.Broadcasts S10000x512
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  dot_S10000x16_S16x8_S10000x8_1_0_0_1_n_n_wf : DotDims.WF S10000x16 S16x8 S10000x8 [1] [0] [0] [1] [] []
  dot_S10000x8_S8x8_S10000x8_1_0_0_1_n_n_wf : DotDims.WF S10000x8 S8x8 S10000x8 [1] [0] [0] [1] [] []
  dot_S10000x16_S16x32_S10000x32_1_0_0_1_n_n_wf : DotDims.WF S10000x16 S16x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x256_S256x64_S5000x64_1_0_0_1_n_n_wf : DotDims.WF S5000x256 S256x64 S5000x64 [1] [0] [0] [1] [] []
  dot_S10000x512_S10000x64_S512x64_0_0_1_1_n_n_wf : DotDims.WF S10000x512 S10000x64 S512x64 [0] [0] [1] [1] [] []
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S100000x2.size a
  hwx0_0 : ∀ i : grid0.Coords, EltTy.bits .i32 = 32 ∨ (Rect.block (s := S100000x2) S10000x2.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x8.size a ≤ S16x8.size a
  hwx0_1 : ∀ i : grid0.Coords, EltTy.bits .f32 = 32 ∨ (Rect.block (s := S16x8) S16x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x8.size a ≤ S8x8.size a
  hwx0_2 : ∀ i : grid0.Coords, EltTy.bits .f32 = 32 ∨ (Rect.block (s := S8x8) S8x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S16x32.size a
  hwx0_3 : ∀ i : grid0.Coords, EltTy.bits .f32 = 32 ∨ (Rect.block (s := S16x32) S16x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x32.size a ≤ S100000x32.size a
  hwx0_5 : ∀ i : grid0.Coords, EltTy.bits .f32 = 32 ∨ (Rect.block (s := S100000x32) S10000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x64.size a ≤ S256x64.size a
  hwx2_4 : ∀ i : grid2.Coords, EltTy.bits .f32 = 32 ∨ (Rect.block (s := S256x64) S256x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .i32 = 32 ∨ (Rect.block (s := S100000x1) S10000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x10.size a ≤ S64x10.size a
  hwx3_2 : ∀ i : grid3.Coords, EltTy.bits .f32 = 32 ∨ (Rect.block (s := S64x10) S64x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x10.size a ≤ S1x10.size a
  hwx3_3 : ∀ i : grid3.Coords, EltTy.bits .f32 = 32 ∨ (Rect.block (s := S1x10) S1x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x10.size a ≤ S512x10.size a
  hwx3_4 : ∀ i : grid3.Coords, EltTy.bits .f32 = 32 ∨ (Rect.block (s := S512x10) S512x10.size (cc3_transform_4 i) (hinb3_4 i)).WholeWords (EltTy.packing .f32)

variable [Facts₀]

def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def dot_S10000x8_S8x8_S10000x8_1_0_0_1_n_n : DotDims S10000x8 S8x8 S10000x8 where
  lhsContracting := [1]
  rhsContracting := [0]
  lhsNonContracting := [0]
  rhsNonContracting := [1]
  lhsBatch := []
  rhsBatch := []
  wf := dot_S10000x8_S8x8_S10000x8_1_0_0_1_n_n_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def dot_S10000x512_S10000x64_S512x64_0_0_1_1_n_n : DotDims S10000x512 S10000x64 S512x64 where
  lhsContracting := [0]
  rhsContracting := [0]
  lhsNonContracting := [1]
  rhsNonContracting := [1]
  lhsBatch := []
  rhsBatch := []
  wf := dot_S10000x512_S10000x64_S512x64_0_0_1_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_arg0) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S16x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S8x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S16x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S10000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v63) S5000x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v70) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v71) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v72) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v72) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v100) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v117) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v134) S5000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v141) S256x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v142) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v143) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v143) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v144) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S64x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v145) S1x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v146) S512x10.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

class Facts : Prop extends Facts₀ where

variable [Facts]
-- ==== ReferenceIdeal.lean ====
abbrev S100000x2 : Shape := ⟨2, ![100000, 2]⟩
abbrev S2x1600000 : Shape := ⟨2, ![2, 1600000]⟩
abbrev S1600000 : Shape := ⟨1, ![1600000]⟩
abbrev S100000 : Shape := ⟨1, ![100000]⟩
abbrev S16x8 : Shape := ⟨2, ![16, 8]⟩
abbrev S8x8 : Shape := ⟨2, ![8, 8]⟩
abbrev S16x32 : Shape := ⟨2, ![16, 32]⟩
abbrev S32 : Shape := ⟨1, ![32]⟩
abbrev S32x64 : Shape := ⟨2, ![32, 64]⟩
abbrev S3x32x64 : Shape := ⟨3, ![3, 32, 64]⟩
abbrev S64 : Shape := ⟨1, ![64]⟩
abbrev S64x64 : Shape := ⟨2, ![64, 64]⟩
abbrev S3x64x64 : Shape := ⟨3, ![3, 64, 64]⟩
abbrev S64x10 : Shape := ⟨2, ![64, 10]⟩
abbrev S10 : Shape := ⟨1, ![10]⟩
abbrev S100000x1 : Shape := ⟨2, ![100000, 1]⟩
abbrev S_ : Shape := ⟨0, ![]⟩
abbrev S100000x8 : Shape := ⟨2, ![100000, 8]⟩
abbrev S100000x16 : Shape := ⟨2, ![100000, 16]⟩
abbrev S100000x32 : Shape := ⟨2, ![100000, 32]⟩
abbrev S1x32 : Shape := ⟨2, ![1, 32]⟩
abbrev S1x1600000 : Shape := ⟨2, ![1, 1600000]⟩
abbrev S100000x64 : Shape := ⟨2, ![100000, 64]⟩
abbrev S1x64 : Shape := ⟨2, ![1, 64]⟩
abbrev S1600000x1 : Shape := ⟨2, ![1600000, 1]⟩
abbrev S1600000x32 : Shape := ⟨2, ![1600000, 32]⟩
abbrev S1x32x64 : Shape := ⟨3, ![1, 32, 64]⟩
abbrev S1600000x64 : Shape := ⟨2, ![1600000, 64]⟩
abbrev S1x64x64 : Shape := ⟨3, ![1, 64, 64]⟩
abbrev S512x64 : Shape := ⟨2, ![512, 64]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 256
  | .vmem => 0
  | .smem => 0
  | _ => 0

abbrev hbmTy0_0 (i : Nat) : BufTy := match i % 128 with
  | 0 => ⟨S100000x2, .i32⟩
  | 1 => ⟨S2x1600000, .i32⟩
  | 2 => ⟨S1600000, .i32⟩
  | 3 => ⟨S100000, .i32⟩
  | 4 => ⟨S16x8, .f32⟩
  | 5 => ⟨S8x8, .f32⟩
  | 6 => ⟨S16x32, .f32⟩
  | 7 => ⟨S32, .f32⟩
  | 8 => ⟨S32x64, .f32⟩
  | 9 => ⟨S3x32x64, .f32⟩
  | 10 => ⟨S64, .f32⟩
  | 11 => ⟨S64x64, .f32⟩
  | 12 => ⟨S3x64x64, .f32⟩
  | 13 => ⟨S64, .f32⟩
  | 14 => ⟨S64x10, .f32⟩
  | 15 => ⟨S10, .f32⟩
  | 16 => ⟨S100000x1, .i32⟩
  | 17 => ⟨S100000, .i32⟩
  | 18 => ⟨S_, .i32⟩
  | 19 => ⟨S100000, .i32⟩
  | 20 => ⟨S100000, .i1⟩
  | 21 => ⟨S_, .i32⟩
  | 22 => ⟨S100000, .i32⟩
  | 23 => ⟨S100000, .i32⟩
  | 24 => ⟨S100000, .i32⟩
  | 25 => ⟨S100000x1, .i32⟩
  | 26 => ⟨S100000x8, .f32⟩
  | 27 => ⟨S100000x1, .i32⟩
  | 28 => ⟨S100000, .i32⟩
  | 29 => ⟨S_, .i32⟩
  | 30 => ⟨S100000, .i32⟩
  | 31 => ⟨S100000, .i1⟩
  | 32 => ⟨S_, .i32⟩
  | 33 => ⟨S100000, .i32⟩
  | 34 => ⟨S100000, .i32⟩
  | 35 => ⟨S100000, .i32⟩
  | 36 => ⟨S100000x1, .i32⟩
  | 37 => ⟨S100000x8, .f32⟩
  | 38 => ⟨S100000x16, .f32⟩
  | 39 => ⟨S100000x32, .f32⟩
  | 40 => ⟨S1x32, .f32⟩
  | 41 => ⟨S100000x32, .f32⟩
  | 42 => ⟨S100000x32, .f32⟩
  | 43 => ⟨S_, .f32⟩
  | 44 => ⟨S100000x32, .f32⟩
  | 45 => ⟨S100000x32, .f32⟩
  | 46 => ⟨S1x1600000, .i32⟩
  | 47 => ⟨S1600000, .i32⟩
  | 48 => ⟨S1x1600000, .i32⟩
  | 49 => ⟨S1600000, .i32⟩
  | 50 => ⟨S100000x64, .f32⟩
  | 51 => ⟨S1x64, .f32⟩
  | 52 => ⟨S100000x64, .f32⟩
  | 53 => ⟨S100000x64, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x32, .f32⟩
  | 63 => ⟨S_, .i32⟩
  | 64 => ⟨S1600000, .i32⟩
  | 65 => ⟨S1600000, .i1⟩
  | 66 => ⟨S1600000, .f32⟩
  | 67 => ⟨S1x32x64, .f32⟩
  | 68 => ⟨S32x64, .f32⟩
  | 69 => ⟨S1600000x64, .f32⟩
  | 70 => ⟨S1600000x1, .f32⟩
  | 71 => ⟨S1600000x64, .f32⟩
  | 72 => ⟨S1600000x64, .f32⟩
  | 73 => ⟨S_, .f32⟩
  | 74 => ⟨S100000x64, .f32⟩
  | 75 => ⟨S1600000x1, .i32⟩
  | 76 => ⟨S100000x64, .f32⟩
  | 77 => ⟨S_, .f32⟩
  | 78 => ⟨S100000, .f32⟩
  | 79 => ⟨S1600000x1, .i32⟩
  | 80 => ⟨S100000, .f32⟩
  | 81 => ⟨S_, .f32⟩
  | 82 => ⟨S100000, .f32⟩
  | 83 => ⟨S100000, .f32⟩
  | 84 => ⟨S100000x1, .f32⟩
  | 85 => ⟨S100000x64, .f32⟩
  | 86 => ⟨S100000x64, .f32⟩
  | 87 => ⟨S100000x64, .f32⟩
  | 88 => ⟨S_, .i32⟩
  | 89 => ⟨S1600000, .i32⟩
  | 90 => ⟨S1600000, .i1⟩
  | 91 => ⟨S1600000, .f32⟩
  | 92 => ⟨S1x32x64, .f32⟩
  | 93 => ⟨S32x64, .f32⟩
  | 94 => ⟨S1600000x64, .f32⟩
  | 95 => ⟨S1600000x1, .f32⟩
  | 96 => ⟨S1600000x64, .f32⟩
  | 97 => ⟨S1600000x64, .f32⟩
  | 98 => ⟨S_, .f32⟩
  | 99 => ⟨S100000x64, .f32⟩
  | 100 => ⟨S1600000x1, .i32⟩
  | 101 => ⟨S100000x64, .f32⟩
  | 102 => ⟨S_, .f32⟩
  | 103 => ⟨S100000, .f32⟩
  | 104 => ⟨S1600000x1, .i32⟩
  | 105 => ⟨S100000, .f32⟩
  | 106 => ⟨S_, .f32⟩
  | 107 => ⟨S100000, .f32⟩
  | 108 => ⟨S100000, .f32⟩
  | 109 => ⟨S100000x1, .f32⟩
  | 110 => ⟨S100000x64, .f32⟩
  | 111 => ⟨S100000x64, .f32⟩
  | 112 => ⟨S100000x64, .f32⟩
  | 113 => ⟨S_, .i32⟩
  | 114 => ⟨S1600000, .i32⟩
  | 115 => ⟨S1600000, .i1⟩
  | 116 => ⟨S1600000, .f32⟩
  | 117 => ⟨S1x32x64, .f32⟩
  | 118 => ⟨S32x64, .f32⟩
  | 119 => ⟨S1600000x64, .f32⟩
  | 120 => ⟨S1600000x1, .f32⟩
  | 121 => ⟨S1600000x64, .f32⟩
  | 122 => ⟨S1600000x64, .f32⟩
  | 123 => ⟨S_, .f32⟩
  | 124 => ⟨S100000x64, .f32⟩
  | 125 => ⟨S1600000x1, .i32⟩
  | 126 => ⟨S100000x64, .f32⟩
  | 127 => ⟨S_, .f32⟩
  | _ => ⟨S100000x2, .i32⟩

abbrev hbmTy0_1 (i : Nat) : BufTy := match i % 128 with
  | 0 => ⟨S100000, .f32⟩
  | 1 => ⟨S1600000x1, .i32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x64, .f32⟩
  | 8 => ⟨S100000x64, .f32⟩
  | 9 => ⟨S100000x64, .f32⟩
  | 10 => ⟨S_, .f32⟩
  | 11 => ⟨S100000x64, .f32⟩
  | 12 => ⟨S100000x64, .f32⟩
  | 13 => ⟨S1x1600000, .i32⟩
  | 14 => ⟨S1600000, .i32⟩
  | 15 => ⟨S1x1600000, .i32⟩
  | 16 => ⟨S1600000, .i32⟩
  | 17 => ⟨S100000x64, .f32⟩
  | 18 => ⟨S1x64, .f32⟩
  | 19 => ⟨S100000x64, .f32⟩
  | 20 => ⟨S100000x64, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x64, .f32⟩
  | 30 => ⟨S_, .i32⟩
  | 31 => ⟨S1600000, .i32⟩
  | 32 => ⟨S1600000, .i1⟩
  | 33 => ⟨S1600000, .f32⟩
  | 34 => ⟨S1x64x64, .f32⟩
  | 35 => ⟨S64x64, .f32⟩
  | 36 => ⟨S1600000x64, .f32⟩
  | 37 => ⟨S1600000x1, .f32⟩
  | 38 => ⟨S1600000x64, .f32⟩
  | 39 => ⟨S1600000x64, .f32⟩
  | 40 => ⟨S_, .f32⟩
  | 41 => ⟨S100000x64, .f32⟩
  | 42 => ⟨S1600000x1, .i32⟩
  | 43 => ⟨S100000x64, .f32⟩
  | 44 => ⟨S_, .f32⟩
  | 45 => ⟨S100000, .f32⟩
  | 46 => ⟨S1600000x1, .i32⟩
  | 47 => ⟨S100000, .f32⟩
  | 48 => ⟨S_, .f32⟩
  | 49 => ⟨S100000, .f32⟩
  | 50 => ⟨S100000, .f32⟩
  | 51 => ⟨S100000x1, .f32⟩
  | 52 => ⟨S100000x64, .f32⟩
  | 53 => ⟨S100000x64, .f32⟩
  | 54 => ⟨S100000x64, .f32⟩
  | 55 => ⟨S_, .i32⟩
  | 56 => ⟨S1600000, .i32⟩
  | 57 => ⟨S1600000, .i1⟩
  | 58 => ⟨S1600000, .f32⟩
  | 59 => ⟨S1x64x64, .f32⟩
  | 60 => ⟨S64x64, .f32⟩
  | 61 => ⟨S1600000x64, .f32⟩
  | 62 => ⟨S1600000x1, .f32⟩
  | 63 => ⟨S1600000x64, .f32⟩
  | 64 => ⟨S1600000x64, .f32⟩
  | 65 => ⟨S_, .f32⟩
  | 66 => ⟨S100000x64, .f32⟩
  | 67 => ⟨S1600000x1, .i32⟩
  | 68 => ⟨S100000x64, .f32⟩
  | 69 => ⟨S_, .f32⟩
  | 70 => ⟨S100000, .f32⟩
  | 71 => ⟨S1600000x1, .i32⟩
  | 72 => ⟨S100000, .f32⟩
  | 73 => ⟨S_, .f32⟩
  | 74 => ⟨S100000, .f32⟩
  | 75 => ⟨S100000, .f32⟩
  | 76 => ⟨S100000x1, .f32⟩
  | 77 => ⟨S100000x64, .f32⟩
  | 78 => ⟨S100000x64, .f32⟩
  | 79 => ⟨S100000x64, .f32⟩
  | 80 => ⟨S_, .i32⟩
  | 81 => ⟨S1600000, .i32⟩
  | 82 => ⟨S1600000, .i1⟩
  | 83 => ⟨S1600000, .f32⟩
  | 84 => ⟨S1x64x64, .f32⟩
  | 85 => ⟨S64x64, .f32⟩
  | 86 => ⟨S1600000x64, .f32⟩
  | 87 => ⟨S1600000x1, .f32⟩
  | 88 => ⟨S1600000x64, .f32⟩
  | 89 => ⟨S1600000x64, .f32⟩
  | 90 => ⟨S_, .f32⟩
  | 91 => ⟨S100000x64, .f32⟩
  | 92 => ⟨S1600000x1, .i32⟩
  | 93 => ⟨S100000x64, .f32⟩
  | 94 => ⟨S_, .f32⟩
  | 95 => ⟨S100000, .f32⟩
  | 96 => ⟨S1600000x1, .i32⟩
  | 97 => ⟨S100000, .f32⟩
  | 98 => ⟨S_, .f32⟩
  | 99 => ⟨S100000, .f32⟩
  | 100 => ⟨S100000, .f32⟩
  | 101 => ⟨S100000x1, .f32⟩
  | 102 => ⟨S100000x64, .f32⟩
  | 103 => ⟨S100000x64, .f32⟩
  | 104 => ⟨S100000x64, .f32⟩
  | 105 => ⟨S_, .f32⟩
  | 106 => ⟨S100000x64, .f32⟩
  | 107 => ⟨S100000x64, .f32⟩
  | 108 => ⟨S_, .f32⟩
  | 109 => ⟨S512x64, .f32⟩
  | 110 => ⟨S100000x1, .i32⟩
  | 111 => ⟨S512x64, .f32⟩
  | 112 => ⟨S_, .f32⟩
  | 113 => ⟨S100000, .f32⟩
  | 114 => ⟨S_, .f32⟩
  | 115 => ⟨S512, .f32⟩
  | 116 => ⟨S100000x1, .i32⟩
  | 117 => ⟨S512, .f32⟩
  | 118 => ⟨S_, .f32⟩
  | 119 => ⟨S512, .f32⟩
  | 120 => ⟨S512, .f32⟩
  | 121 => ⟨S512x1, .f32⟩
  | 122 => ⟨S512x64, .f32⟩
  | 123 => ⟨S512x64, .f32⟩
  | 124 => ⟨S512x10, .f32⟩
  | 125 => ⟨S1x10, .f32⟩
  | 126 => ⟨S512x10, .f32⟩
  | 127 => ⟨S512x10, .f32⟩
  | _ => ⟨S100000x2, .i32⟩

abbrev hbmTy (i : Nat) : BufTy := match i / 128 with
  | 0 => hbmTy0_0 i
  | 1 => hbmTy0_1 i
  | _ => ⟨S100000x2, .i32⟩

abbrev bufTy : (tb : Table) → Fin (tcTables nBuf tb) → BufTy
  | .hbm, ⟨i, _⟩ => hbmTy i
  | _, _ => ⟨S100000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call0_cst : Ref sig .tc := ⟨.hbm, 43, rfl⟩
abbrev main_call0_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_3 : Ref sig .tc := ⟨.hbm, 54, rfl⟩
abbrev main_v32 : Ref sig .tc := ⟨.hbm, 55, rfl⟩
abbrev main_v33 : Ref sig .tc := ⟨.hbm, 56, rfl⟩
abbrev main_c_4 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_6 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_8 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_9 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_10 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_11 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_12 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_13 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_14 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_15 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_call1_cst : Ref sig .tc := ⟨.hbm, 138, rfl⟩
abbrev main_call1_v0 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_c_16 : Ref sig .tc := ⟨.hbm, 149, rfl⟩
abbrev main_v111 : Ref sig .tc := ⟨.hbm, 150, rfl⟩
abbrev main_v112 : Ref sig .tc := ⟨.hbm, 151, rfl⟩
abbrev main_c_17 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_c_18 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_19 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_cst_20 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_cst_21 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_c_22 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_cst_23 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_cst_24 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_cst_25 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_c_26 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_cst_27 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_cst_28 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_cst_29 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_call2_cst : Ref sig .tc := ⟨.hbm, 233, rfl⟩
abbrev main_call2_v0 : Ref sig .tc := ⟨.hbm, 234, rfl⟩
abbrev main_v181 : Ref sig .tc := ⟨.hbm, 235, rfl⟩
abbrev main_cst_30 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_cst_31 : Ref sig .tc := ⟨.hbm, 240, rfl⟩
abbrev main_v185 : Ref sig .tc := ⟨.hbm, 241, rfl⟩
abbrev main_cst_32 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_cst_33 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩

abbrev nD : Nat := 1
abbrev τ : Topo := Topo.v7x

variable {F : FTy → Type} [FloatOps F]

class Facts₀ : Prop where
  slices_S100000x2_S100000x1_0_0 : S100000x2.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S100000x2_S100000x1_0_1 : S100000x2.Slices ![0, 1] S100000x1
  concatenates_S100000x8_S100000x8_S100000x16_d1 : Shape.Concatenates [S100000x8, S100000x8] S100000x16 1
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S3x32x64_S1x32x64_0_0_0 : S3x32x64.Slices ![0, 0, 0] S1x32x64
  shapeCasts_S1x32x64_S32x64 : S1x32x64.ShapeCasts S32x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S3x32x64_S1x32x64_1_0_0 : S3x32x64.Slices ![1, 0, 0] S1x32x64
  slices_S3x32x64_S1x32x64_2_0_0 : S3x32x64.Slices ![2, 0, 0] S1x32x64
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64x64_S1x64x64_2_0_0 : S3x64x64.Slices ![2, 0, 0] S1x64x64
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S16x8_S100000x1_S100000x8_1_0_n_n_0_1_18_wf : GatherDims.WF S16x8 S100000x1 S100000x8 [1] [0] [] [0] [] 1 ![1, 8]
  gather_S8x8_S100000x1_S100000x8_1_0_n_n_0_1_18_wf : GatherDims.WF S8x8 S100000x1 S100000x8 [1] [0] [] [0] [] 1 ![1, 8]
  dot_S100000x16_S16x32_S100000x32_1_0_0_1_n_n_wf : DotDims.WF S100000x16 S16x32 S100000x32 [1] [0] [0] [1] [] []
  dot_S100000x32_S32x64_S100000x64_1_0_0_1_n_n_wf : DotDims.WF S100000x32 S32x64 S100000x64 [1] [0] [0] [1] [] []
  gather_S100000x32_S1600000x1_S1600000x32_1_0_n_n_0_1_132_wf : GatherDims.WF S100000x32 S1600000x1 S1600000x32 [1] [0] [] [0] [] 1 ![1, 32]
  dot_S1600000x32_S32x64_S1600000x64_1_0_0_1_n_n_wf : DotDims.WF S1600000x32 S32x64 S1600000x64 [1] [0] [0] [1] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x64_S64x64_S1600000x64_1_0_0_1_n_n_wf : DotDims.WF S1600000x64 S64x64 S1600000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x10_S512x10_1_0_0_1_n_n_wf : DotDims.WF S512x64 S64x10 S512x10 [1] [0] [0] [1] [] []

variable [Facts₀]

def gather_S16x8_S100000x1_S100000x8_1_0_n_n_0_1_18 : GatherDims S16x8 S100000x1 S100000x8 where
  offsetDims := [1]
  collapsedSliceDims := [0]
  operandBatchingDims := []
  startIndicesBatchingDims := []
  startIndexMap := [0]
  indexVectorDim := 1
  sliceSizes := ![1, 8]
  wf := gather_S16x8_S100000x1_S100000x8_1_0_n_n_0_1_18_wf
def gather_S8x8_S100000x1_S100000x8_1_0_n_n_0_1_18 : GatherDims S8x8 S100000x1 S100000x8 where
  offsetDims := [1]
  collapsedSliceDims := [0]
  operandBatchingDims := []
  startIndicesBatchingDims := []
  startIndexMap := [0]
  indexVectorDim := 1
  sliceSizes := ![1, 8]
  wf := gather_S8x8_S100000x1_S100000x8_1_0_n_n_0_1_18_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x32_S32x64_S1600000x64_1_0_0_1_n_n : DotDims S1600000x32 S32x64 S1600000x64 where
  lhsContracting := [1]
  rhsContracting := [0]
  lhsNonContracting := [0]
  rhsNonContracting := [1]
  lhsBatch := []
  rhsBatch := []
  wf := dot_S1600000x32_S32x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

class Facts : Prop extends Facts₀ where

variable [Facts]
-- ==== Proof.KB.Embed.lean ====
import proofs.«419321_j88648124990635_2_alg».proof.Proof.Gen.Kernel.Launch
import proofs.«419321_j88648124990635_2_alg».proof.Proof.Gen.Kernel.Skeleton
import proofs.«419321_j88648124990635_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_shapeId : Rect S10000x2 := Rect.unit (s := S10000x2) ![0, 0] S10000x1.size inb_S10000x2_S10000x1_0_0
abbrev r0_colorId : Rect S10000x2 := Rect.unit (s := S10000x2) ![0, 1] S10000x1.size inb_S10000x2_S10000x1_0_1
abbrev r0_shapeEmb : Rect S16x8 := Rect.unit (s := S16x8) ![0, 0] S16x8.size inb_S16x8_S16x8_0_0
abbrev r0_colorEmb : Rect S8x8 := Rect.unit (s := S8x8) ![0, 0] S8x8.size inb_S8x8_S8x8_0_0
abbrev r0_preW : Rect S16x32 := Rect.unit (s := S16x32) ![0, 0] S16x32.size inb_S16x32_S16x32_0_0
abbrev r0_preB : Rect S1x32 := Rect.unit (s := S1x32) ![0, 0] S1x32.size inb_S1x32_S1x32_0_0
abbrev r0_out : Rect S10000x32 := Rect.unit (s := S10000x32) ![0, 0] S10000x32.size inb_S10000x32_S10000x32_0_0

def out0_5 (x0 : Vec F S10000x2 .i32) (x1 : Vec F S16x8 .f32) (x2 : Vec F S8x8 .f32) (x3 : Vec F S16x32 .f32) (x4 : Vec F S1x32 .f32) : Vec F S10000x32 .f32 :=
  View.canon [⟨r0_out, k0_pay1 (View.ld x0 r0_shapeId) (View.ld x0 r0_colorId) (View.ld x1 r0_shapeEmb) (View.ld x2 r0_colorEmb) (View.ld x3 r0_preW) (View.ld x4 r0_preB)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_in (c : Dev nD) (w : Fin 6) (hw : w ≠ 5) (t : Fin cfg0.N) (d) : (dat0 V c).before w t d = (dat0 V c).after w t := by
  fin_cases w <;> first | exact absurd rfl hw | exact ((dat0 V c).before_in_eq_fetched _ rfl (fun _ => rfl) (fun _ _ _ => rfl) (fun _ => rfl) t d).trans rfl

-- The output block is a function of the five input blocks alone: the body's one store covers it whole.
theorem body_obligation0 (c : Dev nD) : BodyObligation (dat0 (F := F) V c) (defs₀ (F := F)) Variants.none () Set.univ := fun t => by
  rw [bigSep_W0, bigSep_W0]
  simp (disch := decide) only [before0_in V c]
  rw [show (dat0 V c).owesAt () t.succ = (dat0 V c).owesAt () t.castSucc from rfl]
  dsimp only [dat0]
  generalize iblk0 V c 0 t = x0, iblk0 V c 1 t = x1, iblk0 V c 2 t = x2, iblk0 V c 3 t = x3, iblk0 V c 4 t = x4
  change _ ⊢ wp _ _ _ (bodyAt0 t) _
  unfold bodyAt0
  simp only [cc0__embed_kernel_eq_skeleton]; unfold cc0__embed_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, %d5, %f5, -, H5⟩
  sl_exec
  sl_step
  iframe HΦ Ho
  isplitl [H0]; · iexists f0; iframe H0 %hf0
  isplitl [H1]; · iexists f1; iframe H1 %hf1
  isplitl [H2]; · iexists f2; iframe H2 %hf2
  isplitl [H3]; · iexists f3; iframe H3 %hf3
  isplitl [H4]; · iexists f4; iframe H4 %hf4
  iexists _; iframe H5
  ipureintro
  subst hf0 hf1 hf2 hf3 hf4
  exact View.read_writes_eq_canon _ _ _ (View.cover_of_tiled _ S10000x32.size (by rfl))

end Cert.Kernel.Hand

end
-- ==== Proof.KB.Dense1.lean ====
import proofs.«419321_j88648124990635_2_alg».proof.Proof.Gen.Kernel.Launch
import proofs.«419321_j88648124990635_2_alg».proof.Proof.Gen.Kernel.Skeleton
import proofs.«419321_j88648124990635_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev wholeIn1 : Rect S5000x32 := Rect.unit (s := S5000x32) ![0, 0] S5000x32.size inb_S5000x32_S5000x32_0_0
abbrev wholeWt1 : Rect S128x64 := Rect.unit (s := S128x64) ![0, 0] S128x64.size inb_S128x64_S128x64_0_0
abbrev wholeBias1 : Rect S1x64 := Rect.unit (s := S1x64) ![0, 0] S1x64.size inb_S1x64_S1x64_0_0
abbrev wholeOut1 : Rect S5000x64 := Rect.unit (s := S5000x64) ![0, 0] S5000x64.size inb_S5000x64_S5000x64_0_0

def out1_6 (x0 x1 x2 x3 : Vec F S5000x32 .f32) (x4 : Vec F S128x64 .f32) (x5 : Vec F S1x64 .f32) : Vec F S5000x64 .f32 :=
  View.canon [⟨wholeOut1, k1_pay1 (View.ld x0 wholeIn1) (View.ld x1 wholeIn1) (View.ld x2 wholeIn1) (View.ld x3 wholeIn1)
    (View.ld x4 wholeWt1) (View.ld x5 wholeBias1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_in (c : Dev nD) (w : Fin 7) (hw : w ≠ 6) (t : Fin cfg1.N) (d) : (dat1 V c).before w t d = (dat1 V c).after w t := by
  fin_cases w <;> first | exact absurd rfl hw | exact ((dat1 V c).before_in_eq_fetched _ rfl (fun _ => rfl) (fun _ _ _ => rfl) (fun _ => rfl) t d).trans rfl

-- The output block is a function of the six input blocks alone: the body's one store covers it whole.
theorem body_obligation1 (c : Dev nD) : BodyObligation (dat1 (F := F) V c) (defs₀ (F := F)) Variants.none () Set.univ := fun t => by
  rw [bigSep_W1, bigSep_W1]
  simp (disch := decide) only [before1_in V c]
  rw [show (dat1 V c).owesAt () t.succ = (dat1 V c).owesAt () t.castSucc from rfl]
  dsimp only [dat1]
  generalize iblk1 V c 0 t = x0, iblk1 V c 1 t = x1, iblk1 V c 2 t = x2, iblk1 V c 3 t = x3, iblk1 V c 4 t = x4, iblk1 V c 5 t = x5
  change _ ⊢ wp _ _ _ (bodyAt1 t) _
  unfold bodyAt1
  simp only [cc1__rgcn_dense_kernel_eq_skeleton]; unfold cc1__rgcn_dense_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, %d6, %f6, -, H6⟩
  sl_exec
  sl_step
  iframe HΦ Ho
  isplitl [H0]; · iexists f0; iframe H0 %hf0
  isplitl [H1]; · iexists f1; iframe H1 %hf1
  isplitl [H2]; · iexists f2; iframe H2 %hf2
  isplitl [H3]; · iexists f3; iframe H3 %hf3
  isplitl [H4]; · iexists f4; iframe H4 %hf4
  isplitl [H5]; · iexists f5; iframe H5 %hf5
  iexists _; iframe H6
  ipureintro
  subst hf0 hf1 hf2 hf3 hf4 hf5
  exact View.read_writes_eq_canon _ _ _ (View.cover_of_tiled _ S5000x64.size (by rfl))

end Cert.Kernel.Hand

end
-- ==== Proof.KB.Dense2.lean ====
import proofs.«419321_j88648124990635_2_alg».proof.Proof.Gen.Kernel.Launch
import proofs.«419321_j88648124990635_2_alg».proof.Proof.Gen.Kernel.Skeleton
import proofs.«419321_j88648124990635_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.Kernel Cert.Kernel.Gen

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev wholeIn2 : Rect S5000x64 := Rect.unit (s := S5000x64) ![0, 0] S5000x64.size inb_S5000x64_S5000x64_0_0
abbrev wholeWt2 : Rect S256x64 := Rect.unit (s := S256x64) ![0, 0] S256x64.size inb_S256x64_S256x64_0_0
abbrev wholeBias2 : Rect S1x64 := Rect.unit (s := S1x64) ![0, 0] S1x64.size inb_S1x64_S1x64_0_0
abbrev wholeOut2 : Rect S5000x64 := Rect.unit (s := S5000x64) ![0, 0] S5000x64.size inb_S5000x64_S5000x64_0_0

def out2_6 (x0 x1 x2 x3 : Vec F S5000x64 .f32) (x4 : Vec F S256x64 .f32) (x5 : Vec F S1x64 .f32) : Vec F S5000x64 .f32 :=
  View.canon [⟨wholeOut2, k2_pay1 (View.ld x0 wholeIn2) (View.ld x1 wholeIn2) (View.ld x2 wholeIn2) (View.ld x3 wholeIn2)
    (View.ld x4 wholeWt2) (View.ld x5 wholeBias2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_in (c : Dev nD) (w : Fin 7) (hw : w ≠ 6) (t : Fin cfg2.N) (d) : (dat2 V c).before w t d = (dat2 V c).after w t := by
  fin_cases w <;> first | exact absurd rfl hw | exact ((dat2 V c).before_in_eq_fetched _ rfl (fun _ => rfl) (fun _ _ _ => rfl) (fun _ => rfl) t d).trans rfl

-- The output block is a function of the six input blocks alone: the body's one store covers it whole.
theorem body_obligation2 (c : Dev nD) : BodyObligation (dat2 (F := F) V c) (defs₀ (F := F)) Variants.none () Set.univ := fun t => by
  rw [bigSep_W2, bigSep_W2]
  simp (disch := decide) only [before2_in V c]
  rw [show (dat2 V c).owesAt () t.succ = (dat2 V c).owesAt () t.castSucc from rfl]
  dsimp only [dat2]
  generalize iblk2 V c 0 t = x0, iblk2 V c 1 t = x1, iblk2 V c 2 t = x2, iblk2 V c 3 t = x3, iblk2 V c 4 t = x4, iblk2 V c 5 t = x5
  change _ ⊢ wp _ _ _ (bodyAt2 t) _
  unfold bodyAt2
  simp only [cc2__rgcn_dense_kernel_eq_skeleton]; unfold cc2__rgcn_dense_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, %d6, %f6, -, H6⟩
  sl_exec
  sl_step
  iframe HΦ Ho
  isplitl [H0]; · iexists f0; iframe H0 %hf0
  isplitl [H1]; · iexists f1; iframe H1 %hf1
  isplitl [H2]; · iexists f2; iframe H2 %hf2
  isplitl [H3]; · iexists f3; iframe H3 %hf3
  isplitl [H4]; · iexists f4; iframe H4 %hf4
  isplitl [H5]; · iexists f5; iframe H5 %hf5
  iexists _; iframe H6
  ipureintro
  subst hf0 hf1 hf2 hf3 hf4 hf5
  exact View.read_writes_eq_canon _ _ _ (View.cover_of_tiled _ S5000x64.size (by rfl))

end Cert.Kernel.Hand

end
-- ==== Proof.KB.Pool.lean ====
import proofs.«419321_j88648124990635_2_alg».proof.Proof.Gen.Kernel.Launch
import proofs.«419321_j88648124990635_2_alg».proof.Proof.Gen.Kernel.Skeleton
import proofs.«419321_j88648124990635_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zeros2 : (![0, 0] : Fin 2 → ℕ) = fun _ => 0 := funext fun a => by fin_cases a <;> rfl

-- Read through the whole rectangle, a whole buffer gives back its contents.
theorem readAt_whole {S : Shape} {e : EltTy} (m : Memref sig .tc .vmem S e) (hm : m.IsWhole) (X : S.Idx → Elt F e)
    {off : Fin S.rank → ℕ} (h : off = fun _ => 0) (inb : ∀ a, off a + S.size a ≤ S.size a) :
    m.view.readAt (Elt F) (Rect.unit off S.size inb).toLoadRect (hm.unread X) = X := by
  rw [View.readAt_eq_ld, hm.read_unread, View.ld_unit_zero h inb]

-- The newest write covers every index, so the older writes do not show.
theorem read_writes_whole {S : Shape} {e : EltTy} (m : Memref sig .tc .vmem S e) (f : m.view.ty.Contents (Elt F))
    {off : Fin S.rank → ℕ} (h : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)
abbrev cond3_1 (i : grid3.Coords) : Prop := k3_cond2 i = 1#1
theorem hcond3_1 : ∀ t : Fin cfg3.N, cond3_1 (grid3.coords t) ↔ t.val = 9 :=
  (by decide +kernel : ∀ t : Fin grid3.N, cond3_1 (grid3.coords t) ↔ t.val = 9)

-- The accumulators restart from zero exactly under the first condition, the output is stored exactly under the second, and the two never hold together.
set_option maxHeartbeats 500000 in
theorem run3 (c : Dev nD) (i : grid3.Coords) (arg1 : Memref sig .tc .vmem S10000x64 .f32) (harg1 : arg1.IsWhole) (arg2 : Memref sig .tc .vmem S10000x1 .i32) (harg2 : arg2.IsWhole) (arg3 : Memref sig .tc .vmem S64x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x64 .f32) (harg6 : arg6.IsWhole) (arg7 : Memref sig .tc .vmem S512x64 .f32) (harg7 : arg7.IsWhole)
    (h01 : cond3_0 i → ¬cond3_1 i)
    (x0 : Vec F S10000x64 .f32) (x1 : Vec F S10000x1 .i32) (x2 : Vec F S64x10 .f32) (x3 : Vec F S1x10 .f32)
    (d : Vec F S512x10 .f32) (s0 s1 S C : Vec F S512x64 .f32)
    (hS : S = k3_pay4 x1 x0 (if cond3_0 i then k3_pay1 else s0)) (hC : C = k3_pay5 x1 (if cond3_0 i then k3_pay2 else s1))
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare d ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (if cond3_1 i then k3_pay6 S C x2 x3 else d) ∗ owns (c : Thread nD τ) arg6 fullShare S ∗ owns (c : Thread nD τ) arg7 fullShare C) -∗ K ⟨⟩))
      ⊢ wp frame (wpE (defs₀ (F := F)) Variants.none c none) E (cc3__pool_kernel i arg1 harg1 arg2 harg2 arg3 harg3 arg4 harg4 arg5 harg5 arg6 harg6 arg7 harg7) K := by
  subst hS hC
  rcases Classical.propComplete (cond3_0 i) with hc0 | hc0 <;> rcases Classical.propComplete (cond3_1 i) with hc1 | hc1 <;>
    simp only [hc0, hc1, ↓reduceIte]
  · exact absurd (of_eq_true hc1) (h01 (of_eq_true hc0))
  all_goals
    simp only [cc3__pool_kernel_eq_skeleton]; unfold cc3__pool_kernel_skel owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6
    sl_exec (disch := first | exact of_eq_true hc0 | exact of_eq_false hc0 | exact of_eq_true hc1 | exact of_eq_false hc1)
    sl_step
    iapply Hk
    isplitl [H0]; iexists _; isplitr; swap; iexact H0; rotate_left
    isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    iexists _; isplitr; swap; iexact H6
    all_goals
      ipureintro; try sl_unfold_run_names
      simp only [hf0, hf1, hf2, hf3, hf4, read_writes_whole arg5 _ zeros2, read_writes_whole arg6 _ zeros2,
        read_writes_whole arg7 _ zeros2, View.readCov_unit_zero arg6.view zeros2, View.readCov_unit_zero arg7.view zeros2,
        readAt_whole arg1 harg1 _ zeros2, readAt_whole arg2 harg2 _ zeros2, readAt_whole arg3 harg3 _ zeros2,
        readAt_whole arg4 harg4 _ zeros2, readAt_whole arg6 harg6 _ zeros2, readAt_whole arg7 harg7 _ zeros2]

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem idle3_4 : ∀ t : Fin cfg3.N, ¬cond3_1 (grid3.coords t) → cfg3.idle 4 (grid3.coords t) = true ∧ (cfg3.win 4).flush t = false := by decide +kernel
theorem liveAt3_4 : ∀ t : Fin cfg3.N, cond3_1 (grid3.coords t) → cfg3.idle 4 (grid3.coords t) = false := by decide +kernel

abbrev scM3_0 : Memref sig .tc .vmem S512x64 .f32 := Memref.whole cc3_scratch0
abbrev scM3_1 : Memref sig .tc .vmem S512x64 .f32 := Memref.whole cc3_scratch1

abbrev rest3 (c : Dev nD) : sProp 𝕄 :=
  Pipeline.scopedRestBut (Ix := Unit) (Name := ℕ) (U := UR sig nD τ) (Lvl := ℕ) (Val := Elt F) spec3 c [cc3_scratch0, cc3_scratch1]

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ rest3 (F := F) c) ∗ (∃ r, prngReg c r)) := by
  unfold Pipeline.ΦA; rw [scopedRest3_split]; simp only [scM3_0, scM3_1, owns_whole]; try rfl

def accS (c : Dev nD) : (n : ℕ) → n < cfg3.N → Vec F S512x64 .f32
  | 0, h => k3_pay4 (iblk3 V c 1 ⟨0, h⟩) (iblk3 V c 0 ⟨0, h⟩) (k3_pay1 (F := F))
  | n + 1, h => k3_pay4 (iblk3 V c 1 ⟨n + 1, h⟩) (iblk3 V c 0 ⟨n + 1, h⟩) (accS c n (Nat.lt_of_succ_lt h))

def accC (c : Dev nD) : (n : ℕ) → n < cfg3.N → Vec F S512x64 .f32
  | 0, h => k3_pay5 (iblk3 V c 1 ⟨0, h⟩) (k3_pay2 (F := F))
  | n + 1, h => k3_pay5 (iblk3 V c 1 ⟨n + 1, h⟩) (accC c n (Nat.lt_of_succ_lt h))

theorem accS_zero (c : Dev nD) (h : 0 < cfg3.N) :
    accS V c 0 h = k3_pay4 (iblk3 V c 1 ⟨0, h⟩) (iblk3 V c 0 ⟨0, h⟩) (k3_pay1 (F := F)) := rfl
theorem accS_succ (c : Dev nD) (n : ℕ) (h : n + 1 < cfg3.N) :
    accS V c (n + 1) h = k3_pay4 (iblk3 V c 1 ⟨n + 1, h⟩) (iblk3 V c 0 ⟨n + 1, h⟩) (accS V c n (Nat.lt_of_succ_lt h)) := rfl
theorem accC_zero (c : Dev nD) (h : 0 < cfg3.N) :
    accC V c 0 h = k3_pay5 (iblk3 V c 1 ⟨0, h⟩) (k3_pay2 (F := F)) := rfl
theorem accC_succ (c : Dev nD) (n : ℕ) (h : n + 1 < cfg3.N) :
    accC V c (n + 1) h = k3_pay5 (iblk3 V c 1 ⟨n + 1, h⟩) (accC V c n (Nat.lt_of_succ_lt h)) := rfl

def PhiS3 (c : Dev nD) : (n : ℕ) → n ≤ cfg3.N → sProp 𝕄
  | 0, _ => Pipeline.ΦA spec3 c
  | n + 1, hn => iprop(iprop(iprop(owns (c : Thread nD τ) scM3_0 fullShare (accS V c n hn) ∗ owns (c : Thread nD τ) scM3_1 fullShare (accC V c n hn))
      ∗ rest3 (F := F) c) ∗ (∃ r, prngReg c r))

theorem PhiS3_succ (c : Dev nD) (n : ℕ) (hn : n < cfg3.N) :
    PhiS3 V c (n + 1) hn = iprop(iprop(iprop(owns (c : Thread nD τ) scM3_0 fullShare (accS V c n hn) ∗ owns (c : Thread nD τ) scM3_1 fullShare (accC V c n hn))
      ∗ rest3 (F := F) c) ∗ (∃ r, prngReg c r)) := rfl

-- Before point t the accumulators hold what point t - 1 left, or anything before the first point.
theorem PhiS3_open (c : Dev nD) (t : Fin cfg3.N) :
    PhiS3 V c t.val (Nat.le_of_lt t.isLt) ⊢ iprop(∃ s0 s1,
      ⌜accS V c t.val t.isLt = k3_pay4 (iblk3 V c 1 t) (iblk3 V c 0 t) (if cond3_0 (grid3.coords t) then k3_pay1 else s0)
        ∧ accC V c t.val t.isLt = k3_pay5 (iblk3 V c 1 t) (if cond3_0 (grid3.coords t) then k3_pay2 else s1)⌝
      ∗ iprop(iprop(iprop(owns (c : Thread nD τ) scM3_0 fullShare s0 ∗ owns (c : Thread nD τ) scM3_1 fullShare s1) ∗ rest3 (F := F) c) ∗ (∃ r, prngReg c r))) := by
  obtain ⟨_ | n, hn⟩ := t
  · rw [show PhiS3 V c _ _ = Pipeline.ΦA spec3 c from rfl, PhiA3_eq]
    iintro ⟨⟨⟨⟨%s0, H0⟩, ⟨%s1, H1⟩⟩, Hr⟩, Hg⟩
    iexists s0, s1; isplitr
    · ipureintro; rw [if_pos ((hcond3_0 _).mpr rfl), if_pos ((hcond3_0 _).mpr rfl)]; exact ⟨rfl, rfl⟩
    iframe
  · have h := mt (hcond3_0 ⟨n + 1, hn⟩).mp (Nat.succ_ne_zero n)
    refine (Entails.of_eq (PhiS3_succ V c n (Nat.le_of_lt hn))).trans ?_
    iintro H; iexists _, _; isplitr
    · ipureintro; rw [if_neg h, if_neg h]; exact ⟨rfl, rfl⟩
    iexact H

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay6 (accS V c t.val t.isLt) (accC V c t.val t.isLt) (iblk3 V c 2 t) (iblk3 V c 3 t)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem nine_lt3 : 9 < cfg3.N := show 9 < grid3.N by rw [N_3]; decide

theorem after3_4_last (c : Dev nD) (t : Fin cfg3.N) (ht : t.val = 9) :
    (dat3 V c).after 4 t = k3_pay6 (accS V c 9 nine_lt3) (accC V c 9 nine_lt3) (iblk3 V c 2 t) (iblk3 V c 3 t) := by
  obtain ⟨n, hn⟩ := t; obtain rfl : n = 9 := ht; rfl

-- The body leaves every input block as it found it, so each point finds its own block.
theorem before3 (c : Dev nD) (t : Fin cfg3.N) :
    (∀ d, (dat3 V c).before 0 t d = iblk3 V c 0 t) ∧ (∀ d, (dat3 V c).before 1 t d = iblk3 V c 1 t)
      ∧ (∀ d, (dat3 V c).before 2 t d = iblk3 V c 2 t) ∧ (∀ d, (dat3 V c).before 3 t d = iblk3 V c 3 t) := by
  refine ⟨?_, ?_, ?_, ?_⟩ <;> exact fun d =>
    ((dat3 V c).before_in_eq_fetched _ rfl (fun _ => rfl) (fun _ _ _ => rfl) (fun _ => rfl) t d).trans rfl

-- The output block changes at the last point only.
theorem leaves3_4 (c : Dev nD) (t : Fin cfg3.N) (d) :
    owns (c : Thread nD τ) (st3_4 t) fullShare (if cond3_1 (grid3.coords t) then k3_pay6 (accS V c t.val t.isLt) (accC V c t.val t.isLt) (iblk3 V c 2 t) (iblk3 V c 3 t) else (dat3 V c).before 4 t d)
      ⊢ (dat3 V c).leavesExact 4 t := by
  by_cases h : cond3_1 (grid3.coords t)
  · rw [if_pos h]; unfold Dat.leavesExact; rw [liveAt3_4 t h]; exact .rfl
  · rw [if_neg h, Dat.leavesExact_idle _ 4 t (idle3_4 t h).1 (idle3_4 t h).2]
    iintro H; iexists d; iexact H

theorem body_obligation3 (c : Dev nD) : BodyObligation (dat3 (F := F) V c) (defs₀ (F := F)) Variants.none () Set.univ := fun t => by
  rw [bigSep_W3, bigSep_W3]
  show _ ⊢ wp _ _ _ (bodyAt3 t) fun _ => iprop(_ ∗ _ ∗ _ ∗ _ ∗ _ ∗ _ ∗ (dat3 V c).leavesExact 4 t)
  simp only [(before3 V c t).1, (before3 V c t).2.1, (before3 V c t).2.2.1, (before3 V c t).2.2.2]
  rw [show (dat3 V c).after 0 t = iblk3 V c 0 t from rfl, show (dat3 V c).after 1 t = iblk3 V c 1 t from rfl,
    show (dat3 V c).after 2 t = iblk3 V c 2 t from rfl, show (dat3 V c).after 3 t = iblk3 V c 3 t from rfl,
    show (dat3 V c).owesAt () t.succ = (dat3 V c).owesAt () t.castSucc from rfl,
    show (dat3 V c).Φ t.castSucc = PhiS3 V c t.val (Nat.le_of_lt t.isLt) from rfl,
    show (dat3 V c).Φ t.succ = PhiS3 V c (t.val + 1) t.isLt from rfl, PhiS3_succ]
  have h01 : cond3_0 (grid3.coords t) → ¬cond3_1 (grid3.coords t) := fun h0 h1 => by
    have := (hcond3_0 t).mp h0; have := (hcond3_1 t).mp h1; omega
  iintro ⟨HΦ, Ho, ⟨%d0, H0⟩, ⟨%d1, H1⟩, ⟨%d2, H2⟩, ⟨%d3, H3⟩, ⟨%d4, H4⟩⟩
  ihave HΦ := (PhiS3_open V c t) $$ HΦ
  icases HΦ with ⟨%s0, %s1, %hs, ⟨⟨HS0, HS1⟩, Hr⟩, Hg⟩
  iapply (run3 c (grid3.coords t) _ _ _ _ _ _ _ _ _ _ _ _ _ _ h01 (iblk3 V c 0 t) (iblk3 V c 1 t) (iblk3 V c 2 t) (iblk3 V c 3 t)
    _ s0 s1 _ _ hs.1 hs.2 Set.univ _)
  iframe H0 H1 H2 H3 H4 HS0 HS1
  iintro ⟨H0, H1, H2, H3, H4, HS0, HS1⟩
  ihave H4 := (leaves3_4 V c t d4) $$ H4
  iframe

theorem hin3 (c : Dev nD) : Pipeline.ΦA spec3 c ⊢ (dat3 V c).Φ 0 := .rfl

theorem hout3 (c : Dev nD) : (dat3 V c).Φ (Fin.last cfg3.N) ⊢ Pipeline.ΦA spec3 c := by
  rw [show (dat3 V c).Φ (Fin.last cfg3.N) = PhiS3 V c (9 + 1) nine_lt3 from rfl, PhiS3_succ, PhiA3_eq]
  iintro ⟨⟨⟨H0, H1⟩, Hr⟩, Hg⟩
  iframe Hr Hg
  isplitl [H0] <;> iexists _ <;> iassumption

end Cert.Kernel.Hand

end
-- ==== Proof.KB.Run.lean ====
import proofs.«419321_j88648124990635_2_alg».proof.Proof.KB.Embed
import proofs.«419321_j88648124990635_2_alg».proof.Proof.KB.Dense1
import proofs.«419321_j88648124990635_2_alg».proof.Proof.KB.Dense2
import proofs.«419321_j88648124990635_2_alg».proof.Proof.KB.Pool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer contents at the nine boundaries of the program: the launch memory, then alternately what a stretch of host operations leaves and what a kernel region leaves. -/
abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

/-- A region leaves its own arrays at what its grid points wrote back and every other buffer as it found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb

/-- `b` is one of the sixteen argument arrays. -/
abbrev IsArg (b : Ref sig .tc) : Prop :=
  b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11 ∨ b = main_arg12 ∨ b = main_arg13 ∨ b = main_arg14 ∨ b = main_arg15

theorem ne_arg {v : Ref sig .tc} (hv : ¬ IsArg v) (b : Ref sig .tc) (hb : IsArg b) :
    Proc.devRef (τ := τ) .tc b ≠ Proc.devRef .tc v :=
  fun e => hv (Proc.devRef_injective _ e ▸ hb)

abbrev IsStretch (ops : List (HloOp τ sig (Elt F))) : Prop :=
  ops = hostOps0 ∨ ops = hostOps1 ∨ ops = hostOps2 ∨ ops = hostOps3

/-- Every host operation writes a value buffer of its own, and none of those is an argument: an argument passes a stretch unchanged. -/
theorem keep (ops : List (HloOp τ sig (Elt F))) (hops : IsStretch ops) (Wv : Valuation τ sig (Elt F)) (b : Ref sig .tc) (hb : IsArg b) :
    StableHlo.after ops Wv (Proc.devRef .tc b) = Wv (Proc.devRef .tc b) := by
  refine StableHlo.after_of_forall_not_mem ops Wv fun op hop => ?_
  suffices h : ops.Forall fun op => ∀ b, IsArg b → Proc.devRef (τ := τ) .tc b ∉ op.writes from List.forall_iff_forall_mem.mp h op hop b hb
  rcases hops with rfl | rfl | rfl | rfl <;>
  · simp only [hostOps0, hostOps1, hostOps2, hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact ne_arg (by decide)

abbrev adm : (p : Fin 4) → (pcfgs (F := F) p).Adm := fun p => (cfgs p).toPCfg_adm

/-- Each region's proof data are taken at the contents the region is entered with. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps_fresh (ops : List (HloOp τ sig (Elt F))) (hops : IsStretch ops) : ops.Forall fun op => op.fresh = ∅ := by
  rcases hops with rfl | rfl | rfl | rfl <;> (simp only [List.Forall]; repeat' constructor)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W8 m ρ c) ∗ ∃ r, prngReg c r)

section Reg
variable (p : Fin 4) (launch : Pipeline.LaunchFacts (nD := nD) (τ := τ) cfgs p)
  (Wi Wo : Dev nD → Valuation τ sig (Elt F))

local notation "𝔠" => Pipeline.pin (pcfgs (F := F)) adm p

set_option backward.isDefEq.respectTransparency.types false in
/-- A region as one step of the run, for any of the four: entered with every buffer at the contents before it, left with its own arrays at what its grid points wrote back and every other buffer as it was; the region's own facts are the hypotheses. -/
def mkReg
    (hbody : ∀ c, Pipeline.BodyObligationLoose (pdats m ρ p c) (defs₀ (F := F)) 𝒱₀ () Set.univ)
    (howed : ∀ c t, (pdats m ρ p c).owed t = 0) (hrec : ∀ c x, x ∈ (pdats m ρ p c).recorded 0)
    (hq : ∀ c w, (pdats m ρ p c).q w = fullShare)
    (hA : ∀ c w, (pdats m ρ p c).A w = Wi c (Proc.devRef .tc (Pipeline.arrRef (𝔠).spec w)))
    (hin : ∀ c, Pipeline.ΦA (𝔠).spec c ⊢ (pdats m ρ p c).Φ 0)
    (hout : ∀ c, (pdats m ρ p c).Φ (Fin.last (𝔠).N) ⊢ Pipeline.ΦA (𝔠).spec c)
    (harr : ∀ c w, Wo c (Proc.devRef .tc (Pipeline.arrRef (𝔠).spec w)) = (pdats m ρ p c).arrAt w (𝔠).N)
    (hne : ∀ c (b : Ref sig .tc), (∀ w, Pipeline.arrRef (𝔠).spec w ≠ b) → Wo c (Proc.devRef .tc b) = Wi c (Proc.devRef .tc b)) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (𝔠).spec c fun b => Wi c (Proc.devRef .tc b)
  hentry c := by
    rw [Pipeline.ownSems0_none]
    have hsplit := Pipeline.arrays_of_unscopedBufs (p := p) (pcfgs (F := F)) adm (pdats m ρ) launch.win launch.arr_whole c
      ((pdats m ρ p c).share_full (hq c)) (fun b => Wi c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m ρ) ((pdats m ρ p c).share_full (hq c))
      (fun b => Wi c (Proc.devRef .tc b)) (fun b => Wo c (Proc.devRef .tc b)) ((pdats m ρ p c).arrAt · (𝔠).N) (fun w => (harr c w).symm)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

end Reg

set_option backward.isDefEq.respectTransparency.types false in
def reg0 : Pipeline.RegionSeg (pcfgs (F := F)) adm (pdats m ρ) () defs₀ 𝒱₀ L lv 0 :=
  mkReg m ρ 0 launch0 (W1 m ρ) (W2 m ρ) (fun c => (body_obligation0 (V1 m ρ) c).loose) (fun _ _ => rfl) (fun _ _ => trivial)
    (fun _ _ => rfl) (fun _ _ => rfl) (fun _ => .rfl) (fun _ => .rfl) (W2_arr m ρ) (W2_of_ne m ρ)

set_option backward.isDefEq.respectTransparency.types false in
def reg1 : Pipeline.RegionSeg (pcfgs (F := F)) adm (pdats m ρ) () defs₀ 𝒱₀ L lv 1 :=
  mkReg m ρ 1 launch1 (W3 m ρ) (W4 m ρ) (fun c => (body_obligation1 (V3 m ρ) c).loose) (fun _ _ => rfl) (fun _ _ => trivial)
    (fun _ _ => rfl) (fun _ _ => rfl) (fun _ => .rfl) (fun _ => .rfl) (W4_arr m ρ) (W4_of_ne m ρ)

set_option backward.isDefEq.respectTransparency.types false in
def reg2 : Pipeline.RegionSeg (pcfgs (F := F)) adm (pdats m ρ) () defs₀ 𝒱₀ L lv 2 :=
  mkReg m ρ 2 launch2 (W5 m ρ) (W6 m ρ) (fun c => (body_obligation2 (V5 m ρ) c).loose) (fun _ _ => rfl) (fun _ _ => trivial)
    (fun _ _ => rfl) (fun _ _ => rfl) (fun _ => .rfl) (fun _ => .rfl) (W6_arr m ρ) (W6_of_ne m ρ)

set_option backward.isDefEq.respectTransparency.types false in
def reg3 : Pipeline.RegionSeg (pcfgs (F := F)) adm (pdats m ρ) () defs₀ 𝒱₀ L lv 3 :=
  mkReg m ρ 3 launch3 (W7 m ρ) (W8 m ρ) (fun c => (body_obligation3 (V7 m ρ) c).loose) (fun _ _ => rfl) (fun _ _ => trivial)
    (fun _ _ => rfl) (fun _ _ => rfl) (hin3 (V7 m ρ)) (hout3 (V7 m ρ)) (W8_arr m ρ) (W8_of_ne m ρ)

abbrev segs : List (Pipeline.Seg (pcfgs (F := F)) adm (pdats m ρ) () defs₀ 𝒱₀ L lv) :=
  [ .host (hseg hostOps0 hostOps0_sub (hostOps_fresh _ (.inl rfl)) (W0 m ρ)),
    .region (reg0 m ρ),
    .host (hseg hostOps1 hostOps1_sub (hostOps_fresh _ (.inr (.inl rfl))) (W2 m ρ)),
    .region (reg1 m ρ),
    .host (hseg hostOps2 hostOps2_sub (hostOps_fresh _ (.inr (.inr (.inl rfl)))) (W4 m ρ)),
    .region (reg2 m ρ),
    .host (hseg hostOps3 hostOps3_sub (hostOps_fresh _ (.inr (.inr (.inr rfl)))) (W6 m ρ)),
    .region (reg3 m ρ) ]

theorem main_run (c : Dev nD) : main (F := F) c = Pipeline.Seg.run (segs m ρ) := (main_chain c).trans (by chain_rfl)

set_option backward.isDefEq.respectTransparency.types false in

/-- Every weakly fair execution of the program ends, nothing faulting, with every buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.Kernel.Hand

end
-- ==== Proof.KB.RunArgs.lean ====
import proofs.«419321_j88648124990635_2_alg».proof.Proof.KB.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem arg_unscoped {b : Ref sig .tc} (hb : IsArg b) : ¬ (Proc.devRef .tc b : DevRef τ sig).isScoped := by
  rcases hb with rfl | rfl | rfl | rfl | rfl | rfl | rfl | rfl | rfl | rfl | rfl | rfl | rfl | rfl | rfl | rfl <;> decide

/-- If a region's exit contents agree with its entry contents on every array of its own that is `b`, the region leaves `b` as it found it. -/
theorem withArrays_keep {gr W : ℕ} (win : Fin W → Pipeline.WinSpec sig gr) (hinj : Function.Injective (Pipeline.arrRef win)) (c : Dev nD)
    (Wv : Valuation τ sig (Elt F)) (A : (w : Fin W) → Buf (Elt F) ((win w).arr.view.loc (c.tc : Thread nD τ))) (b : Ref sig .tc)
    (h : ∀ w, Pipeline.arrRef win w = b → A w = Wv (Proc.devRef .tc (Pipeline.arrRef win w))) :
    Pipeline.withArrays win c Wv A (Proc.devRef .tc b) = Wv (Proc.devRef .tc b) := by
  by_cases hb : ∃ w, Pipeline.arrRef win w = b
  · obtain ⟨w, rfl⟩ := hb
    exact (Pipeline.withArrays_arr win hinj c Wv A w).trans (h w rfl)
  · exact Pipeline.withArrays_of_ne win c Wv A b fun w e => hb ⟨w, e⟩

variable (c : Dev nD) (b : Ref sig .tc) (hb : IsArg b)
include hb

/-- A region has an argument among its arrays only through an input window, whose array it never writes. -/
theorem exit0 : W2 m ρ c (Proc.devRef .tc b) = W1 m ρ c (Proc.devRef .tc b) :=
  withArrays_keep spec0 launch0.win.arr_inj c _ _ b fun w e =>
    ((dat0 (V1 m ρ) c).arrAt_in w ((by decide : ∀ w, IsArg (Pipeline.arrRef spec0 w) → (cfg0.win w).isOut = false) w (e ▸ hb)) _).trans
      (A_eq0 (V1 m ρ) c w)

theorem exit1 : W4 m ρ c (Proc.devRef .tc b) = W3 m ρ c (Proc.devRef .tc b) :=
  W4_of_ne m ρ c b fun w e => (by decide : ∀ w, ¬ IsArg (Pipeline.arrRef spec1 w)) w (e ▸ hb)

theorem exit2 : W6 m ρ c (Proc.devRef .tc b) = W5 m ρ c (Proc.devRef .tc b) :=
  W6_of_ne m ρ c b fun w e => (by decide : ∀ w, ¬ IsArg (Pipeline.arrRef spec2 w)) w (e ▸ hb)

theorem exit3 : W8 m ρ c (Proc.devRef .tc b) = W7 m ρ c (Proc.devRef .tc b) :=
  withArrays_keep spec3 launch3.win.arr_inj c _ _ b fun w e =>
    ((dat3 (V7 m ρ) c).arrAt_in w ((by decide : ∀ w, IsArg (Pipeline.arrRef spec3 w) → (cfg3.win w).isOut = false) w (e ▸ hb)) _).trans
      (A_eq3 (V7 m ρ) c w)

/-- At every boundary an argument array holds the launch contents: walk back boundary by boundary. -/
theorem W1_arg : W1 m ρ c (Proc.devRef .tc b) = m ((c : Thread nD τ).loc b) := keep hostOps0 (.inl rfl) (W0 m ρ c) b hb
theorem W2_arg : W2 m ρ c (Proc.devRef .tc b) = m ((c : Thread nD τ).loc b) := (exit0 m ρ c b hb).trans (W1_arg m ρ c b hb)
theorem W3_arg : W3 m ρ c (Proc.devRef .tc b) = m ((c : Thread nD τ).loc b) :=
  (keep hostOps1 (.inr (.inl rfl)) (W2 m ρ c) b hb).trans (W2_arg m ρ c b hb)
theorem W4_arg : W4 m ρ c (Proc.devRef .tc b) = m ((c : Thread nD τ).loc b) := (exit1 m ρ c b hb).trans (W3_arg m ρ c b hb)
theorem W5_arg : W5 m ρ c (Proc.devRef .tc b) = m ((c : Thread nD τ).loc b) :=
  (keep hostOps2 (.inr (.inr (.inl rfl))) (W4 m ρ c) b hb).trans (W4_arg m ρ c b hb)
theorem W6_arg : W6 m ρ c (Proc.devRef .tc b) = m ((c : Thread nD τ).loc b) := (exit2 m ρ c b hb).trans (W5_arg m ρ c b hb)
theorem W7_arg : W7 m ρ c (Proc.devRef .tc b) = m ((c : Thread nD τ).loc b) :=
  (keep hostOps3 (.inr (.inr (.inr rfl))) (W6 m ρ c) b hb).trans (W6_arg m ρ c b hb)
theorem W8_arg : W8 m ρ c (Proc.devRef .tc b) = m ((c : Thread nD τ).loc b) := (exit3 m ρ c b hb).trans (W7_arg m ρ c b hb)

omit hb

/-- The run with the arguments read back: every buffer at the last boundary's contents, the sixteen arguments as launched. -/
theorem run_args : θ_run defs (onTc (τ := τ) (main (F := F))) ⟨m, fun _ => 0, ρ⟩ (fun r => ∀ c : Dev nD,
      (∀ b ∈ Pipeline.ucRefs τ sig, r.2.mem (((c : Thread nD τ)).1, b) = W8 m ρ c b)
      ∧ ∀ b, IsArg b → r.2.mem ((c.tc : Thread nD τ).loc b) = m ((c.tc : Thread nD τ).loc b)) :=
  (θ_run defs _ _).mono (fun r h c => ⟨h c, fun b hb => (h c _ (mem_uc b (arg_unscoped hb))).trans (W8_arg m ρ c b hb)⟩) (run_main m ρ)

end Cert.Kernel.Hand

end
-- ==== Proof.KI.Embed.lean ====
import proofs.«419321_j88648124990635_2_alg».proof.Proof.Gen.KernelIdeal.Launch
import proofs.«419321_j88648124990635_2_alg».proof.Proof.Gen.KernelIdeal.Skeleton
import proofs.«419321_j88648124990635_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_shapeId : Rect S10000x2 := Rect.unit (s := S10000x2) ![0, 0] S10000x1.size inb_S10000x2_S10000x1_0_0
abbrev r0_colorId : Rect S10000x2 := Rect.unit (s := S10000x2) ![0, 1] S10000x1.size inb_S10000x2_S10000x1_0_1
abbrev r0_shapeEmb : Rect S16x8 := Rect.unit (s := S16x8) ![0, 0] S16x8.size inb_S16x8_S16x8_0_0
abbrev r0_colorEmb : Rect S8x8 := Rect.unit (s := S8x8) ![0, 0] S8x8.size inb_S8x8_S8x8_0_0
abbrev r0_preW : Rect S16x32 := Rect.unit (s := S16x32) ![0, 0] S16x32.size inb_S16x32_S16x32_0_0
abbrev r0_preB : Rect S1x32 := Rect.unit (s := S1x32) ![0, 0] S1x32.size inb_S1x32_S1x32_0_0
abbrev r0_out : Rect S10000x32 := Rect.unit (s := S10000x32) ![0, 0] S10000x32.size inb_S10000x32_S10000x32_0_0

def out0_5 (x0 : Vec F S10000x2 .i32) (x1 : Vec F S16x8 .f32) (x2 : Vec F S8x8 .f32) (x3 : Vec F S16x32 .f32) (x4 : Vec F S1x32 .f32) : Vec F S10000x32 .f32 :=
  View.canon [⟨r0_out, k0_pay1 (View.ld x0 r0_shapeId) (View.ld x0 r0_colorId) (View.ld x1 r0_shapeEmb) (View.ld x2 r0_colorEmb) (View.ld x3 r0_preW) (View.ld x4 r0_preB)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_in (c : Dev nD) (w : Fin 6) (hw : w ≠ 5) (t : Fin cfg0.N) (d) : (dat0 V c).before w t d = (dat0 V c).after w t := by
  fin_cases w <;> first | exact absurd rfl hw | exact ((dat0 V c).before_in_eq_fetched _ rfl (fun _ => rfl) (fun _ _ _ => rfl) (fun _ => rfl) t d).trans rfl

-- The output block is a function of the five input blocks alone: the body's one store covers it whole.
theorem body_obligation0 (c : Dev nD) : BodyObligation (dat0 (F := F) V c) (defs₀ (F := F)) Variants.none () Set.univ := fun t => by
  rw [bigSep_W0, bigSep_W0]
  simp (disch := decide) only [before0_in V c]
  rw [show (dat0 V c).owesAt () t.succ = (dat0 V c).owesAt () t.castSucc from rfl]
  dsimp only [dat0]
  generalize iblk0 V c 0 t = x0, iblk0 V c 1 t = x1, iblk0 V c 2 t = x2, iblk0 V c 3 t = x3, iblk0 V c 4 t = x4
  change _ ⊢ wp _ _ _ (bodyAt0 t) _
  unfold bodyAt0
  simp only [cc0__embed_kernel_eq_skeleton]; unfold cc0__embed_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, %d5, %f5, -, H5⟩
  sl_exec
  sl_step
  iframe HΦ Ho
  isplitl [H0]; · iexists f0; iframe H0 %hf0
  isplitl [H1]; · iexists f1; iframe H1 %hf1
  isplitl [H2]; · iexists f2; iframe H2 %hf2
  isplitl [H3]; · iexists f3; iframe H3 %hf3
  isplitl [H4]; · iexists f4; iframe H4 %hf4
  iexists _; iframe H5
  ipureintro
  subst hf0 hf1 hf2 hf3 hf4
  exact View.read_writes_eq_canon _ _ _ (View.cover_of_tiled _ S10000x32.size (by rfl))

end Cert.KernelIdeal.Hand

end
-- ==== Proof.KI.Dense1.lean ====
import proofs.«419321_j88648124990635_2_alg».proof.Proof.Gen.KernelIdeal.Launch
import proofs.«419321_j88648124990635_2_alg».proof.Proof.Gen.KernelIdeal.Skeleton
import proofs.«419321_j88648124990635_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev wholeIn1 : Rect S5000x32 := Rect.unit (s := S5000x32) ![0, 0] S5000x32.size inb_S5000x32_S5000x32_0_0
abbrev wholeWt1 : Rect S128x64 := Rect.unit (s := S128x64) ![0, 0] S128x64.size inb_S128x64_S128x64_0_0
abbrev wholeBias1 : Rect S1x64 := Rect.unit (s := S1x64) ![0, 0] S1x64.size inb_S1x64_S1x64_0_0
abbrev wholeOut1 : Rect S5000x64 := Rect.unit (s := S5000x64) ![0, 0] S5000x64.size inb_S5000x64_S5000x64_0_0

def out1_6 (x0 x1 x2 x3 : Vec F S5000x32 .f32) (x4 : Vec F S128x64 .f32) (x5 : Vec F S1x64 .f32) : Vec F S5000x64 .f32 :=
  View.canon [⟨wholeOut1, k1_pay1 (View.ld x0 wholeIn1) (View.ld x1 wholeIn1) (View.ld x2 wholeIn1) (View.ld x3 wholeIn1)
    (View.ld x4 wholeWt1) (View.ld x5 wholeBias1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_in (c : Dev nD) (w : Fin 7) (hw : w ≠ 6) (t : Fin cfg1.N) (d) : (dat1 V c).before w t d = (dat1 V c).after w t := by
  fin_cases w <;> first | exact absurd rfl hw | exact ((dat1 V c).before_in_eq_fetched _ rfl (fun _ => rfl) (fun _ _ _ => rfl) (fun _ => rfl) t d).trans rfl

-- The output block is a function of the six input blocks alone: the body's one store covers it whole.
theorem body_obligation1 (c : Dev nD) : BodyObligation (dat1 (F := F) V c) (defs₀ (F := F)) Variants.none () Set.univ := fun t => by
  rw [bigSep_W1, bigSep_W1]
  simp (disch := decide) only [before1_in V c]
  rw [show (dat1 V c).owesAt () t.succ = (dat1 V c).owesAt () t.castSucc from rfl]
  dsimp only [dat1]
  generalize iblk1 V c 0 t = x0, iblk1 V c 1 t = x1, iblk1 V c 2 t = x2, iblk1 V c 3 t = x3, iblk1 V c 4 t = x4, iblk1 V c 5 t = x5
  change _ ⊢ wp _ _ _ (bodyAt1 t) _
  unfold bodyAt1
  simp only [cc1__rgcn_dense_kernel_eq_skeleton]; unfold cc1__rgcn_dense_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, %d6, %f6, -, H6⟩
  sl_exec
  sl_step
  iframe HΦ Ho
  isplitl [H0]; · iexists f0; iframe H0 %hf0
  isplitl [H1]; · iexists f1; iframe H1 %hf1
  isplitl [H2]; · iexists f2; iframe H2 %hf2
  isplitl [H3]; · iexists f3; iframe H3 %hf3
  isplitl [H4]; · iexists f4; iframe H4 %hf4
  isplitl [H5]; · iexists f5; iframe H5 %hf5
  iexists _; iframe H6
  ipureintro
  subst hf0 hf1 hf2 hf3 hf4 hf5
  exact View.read_writes_eq_canon _ _ _ (View.cover_of_tiled _ S5000x64.size (by rfl))

end Cert.KernelIdeal.Hand

end
-- ==== Proof.KI.Dense2.lean ====
import proofs.«419321_j88648124990635_2_alg».proof.Proof.Gen.KernelIdeal.Launch
import proofs.«419321_j88648124990635_2_alg».proof.Proof.Gen.KernelIdeal.Skeleton
import proofs.«419321_j88648124990635_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev wholeIn2 : Rect S5000x64 := Rect.unit (s := S5000x64) ![0, 0] S5000x64.size inb_S5000x64_S5000x64_0_0
abbrev wholeWt2 : Rect S256x64 := Rect.unit (s := S256x64) ![0, 0] S256x64.size inb_S256x64_S256x64_0_0
abbrev wholeBias2 : Rect S1x64 := Rect.unit (s := S1x64) ![0, 0] S1x64.size inb_S1x64_S1x64_0_0
abbrev wholeOut2 : Rect S5000x64 := Rect.unit (s := S5000x64) ![0, 0] S5000x64.size inb_S5000x64_S5000x64_0_0

def out2_6 (x0 x1 x2 x3 : Vec F S5000x64 .f32) (x4 : Vec F S256x64 .f32) (x5 : Vec F S1x64 .f32) : Vec F S5000x64 .f32 :=
  View.canon [⟨wholeOut2, k2_pay1 (View.ld x0 wholeIn2) (View.ld x1 wholeIn2) (View.ld x2 wholeIn2) (View.ld x3 wholeIn2)
    (View.ld x4 wholeWt2) (View.ld x5 wholeBias2)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_in (c : Dev nD) (w : Fin 7) (hw : w ≠ 6) (t : Fin cfg2.N) (d) : (dat2 V c).before w t d = (dat2 V c).after w t := by
  fin_cases w <;> first | exact absurd rfl hw | exact ((dat2 V c).before_in_eq_fetched _ rfl (fun _ => rfl) (fun _ _ _ => rfl) (fun _ => rfl) t d).trans rfl

-- The output block is a function of the six input blocks alone: the body's one store covers it whole.
theorem body_obligation2 (c : Dev nD) : BodyObligation (dat2 (F := F) V c) (defs₀ (F := F)) Variants.none () Set.univ := fun t => by
  rw [bigSep_W2, bigSep_W2]
  simp (disch := decide) only [before2_in V c]
  rw [show (dat2 V c).owesAt () t.succ = (dat2 V c).owesAt () t.castSucc from rfl]
  dsimp only [dat2]
  generalize iblk2 V c 0 t = x0, iblk2 V c 1 t = x1, iblk2 V c 2 t = x2, iblk2 V c 3 t = x3, iblk2 V c 4 t = x4, iblk2 V c 5 t = x5
  change _ ⊢ wp _ _ _ (bodyAt2 t) _
  unfold bodyAt2
  simp only [cc2__rgcn_dense_kernel_eq_skeleton]; unfold cc2__rgcn_dense_kernel_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, %d6, %f6, -, H6⟩
  sl_exec
  sl_step
  iframe HΦ Ho
  isplitl [H0]; · iexists f0; iframe H0 %hf0
  isplitl [H1]; · iexists f1; iframe H1 %hf1
  isplitl [H2]; · iexists f2; iframe H2 %hf2
  isplitl [H3]; · iexists f3; iframe H3 %hf3
  isplitl [H4]; · iexists f4; iframe H4 %hf4
  isplitl [H5]; · iexists f5; iframe H5 %hf5
  iexists _; iframe H6
  ipureintro
  subst hf0 hf1 hf2 hf3 hf4 hf5
  exact View.read_writes_eq_canon _ _ _ (View.cover_of_tiled _ S5000x64.size (by rfl))

end Cert.KernelIdeal.Hand

end
-- ==== Proof.KI.Pool.lean ====
import proofs.«419321_j88648124990635_2_alg».proof.Proof.Gen.KernelIdeal.Launch
import proofs.«419321_j88648124990635_2_alg».proof.Proof.Gen.KernelIdeal.Skeleton
import proofs.«419321_j88648124990635_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zeros2 : (![0, 0] : Fin 2 → ℕ) = fun _ => 0 := funext fun a => by fin_cases a <;> rfl

-- Read through the whole rectangle, a whole buffer gives back its contents.
theorem readAt_whole {S : Shape} {e : EltTy} (m : Memref sig .tc .vmem S e) (hm : m.IsWhole) (X : S.Idx → Elt F e)
    {off : Fin S.rank → ℕ} (h : off = fun _ => 0) (inb : ∀ a, off a + S.size a ≤ S.size a) :
    m.view.readAt (Elt F) (Rect.unit off S.size inb).toLoadRect (hm.unread X) = X := by
  rw [View.readAt_eq_ld, hm.read_unread, View.ld_unit_zero h inb]

-- The newest write covers every index, so the older writes do not show.
theorem read_writes_whole {S : Shape} {e : EltTy} (m : Memref sig .tc .vmem S e) (f : m.view.ty.Contents (Elt F))
    {off : Fin S.rank → ℕ} (h : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h inb]

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)
abbrev cond3_1 (i : grid3.Coords) : Prop := k3_cond2 i = 1#1
theorem hcond3_1 : ∀ t : Fin cfg3.N, cond3_1 (grid3.coords t) ↔ t.val = 9 :=
  (by decide +kernel : ∀ t : Fin grid3.N, cond3_1 (grid3.coords t) ↔ t.val = 9)

-- The accumulators restart from zero exactly under the first condition, the output is stored exactly under the second, and the two never hold together.
set_option maxHeartbeats 500000 in
theorem run3 (c : Dev nD) (i : grid3.Coords) (arg1 : Memref sig .tc .vmem S10000x64 .f32) (harg1 : arg1.IsWhole) (arg2 : Memref sig .tc .vmem S10000x1 .i32) (harg2 : arg2.IsWhole) (arg3 : Memref sig .tc .vmem S64x10 .f32) (harg3 : arg3.IsWhole) (arg4 : Memref sig .tc .vmem S1x10 .f32) (harg4 : arg4.IsWhole) (arg5 : Memref sig .tc .vmem S512x10 .f32) (harg5 : arg5.IsWhole) (arg6 : Memref sig .tc .vmem S512x64 .f32) (harg6 : arg6.IsWhole) (arg7 : Memref sig .tc .vmem S512x64 .f32) (harg7 : arg7.IsWhole)
    (h01 : cond3_0 i → ¬cond3_1 i)
    (x0 : Vec F S10000x64 .f32) (x1 : Vec F S10000x1 .i32) (x2 : Vec F S64x10 .f32) (x3 : Vec F S1x10 .f32)
    (d : Vec F S512x10 .f32) (s0 s1 S C : Vec F S512x64 .f32)
    (hS : S = k3_pay4 x1 x0 (if cond3_0 i then k3_pay1 else s0)) (hC : C = k3_pay5 x1 (if cond3_0 i then k3_pay2 else s1))
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare d ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (if cond3_1 i then k3_pay6 S C x2 x3 else d) ∗ owns (c : Thread nD τ) arg6 fullShare S ∗ owns (c : Thread nD τ) arg7 fullShare C) -∗ K ⟨⟩))
      ⊢ wp frame (wpE (defs₀ (F := F)) Variants.none c none) E (cc3__pool_kernel i arg1 harg1 arg2 harg2 arg3 harg3 arg4 harg4 arg5 harg5 arg6 harg6 arg7 harg7) K := by
  subst hS hC
  rcases Classical.propComplete (cond3_0 i) with hc0 | hc0 <;> rcases Classical.propComplete (cond3_1 i) with hc1 | hc1 <;>
    simp only [hc0, hc1, ↓reduceIte]
  · exact absurd (of_eq_true hc1) (h01 (of_eq_true hc0))
  all_goals
    simp only [cc3__pool_kernel_eq_skeleton]; unfold cc3__pool_kernel_skel owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf6
    sl_exec (disch := first | exact of_eq_true hc0 | exact of_eq_false hc0 | exact of_eq_true hc1 | exact of_eq_false hc1)
    sl_step
    iapply Hk
    isplitl [H0]; iexists _; isplitr; swap; iexact H0; rotate_left
    isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    iexists _; isplitr; swap; iexact H6
    all_goals
      ipureintro; try sl_unfold_run_names
      simp only [hf0, hf1, hf2, hf3, hf4, read_writes_whole arg5 _ zeros2, read_writes_whole arg6 _ zeros2,
        read_writes_whole arg7 _ zeros2, View.readCov_unit_zero arg6.view zeros2, View.readCov_unit_zero arg7.view zeros2,
        readAt_whole arg1 harg1 _ zeros2, readAt_whole arg2 harg2 _ zeros2, readAt_whole arg3 harg3 _ zeros2,
        readAt_whole arg4 harg4 _ zeros2, readAt_whole arg6 harg6 _ zeros2, readAt_whole arg7 harg7 _ zeros2]

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem idle3_4 : ∀ t : Fin cfg3.N, ¬cond3_1 (grid3.coords t) → cfg3.idle 4 (grid3.coords t) = true ∧ (cfg3.win 4).flush t = false := by decide +kernel
theorem liveAt3_4 : ∀ t : Fin cfg3.N, cond3_1 (grid3.coords t) → cfg3.idle 4 (grid3.coords t) = false := by decide +kernel

abbrev scM3_0 : Memref sig .tc .vmem S512x64 .f32 := Memref.whole cc3_scratch0
abbrev scM3_1 : Memref sig .tc .vmem S512x64 .f32 := Memref.whole cc3_scratch1

abbrev rest3 (c : Dev nD) : sProp 𝕄 :=
  Pipeline.scopedRestBut (Ix := Unit) (Name := ℕ) (U := UR sig nD τ) (Lvl := ℕ) (Val := Elt F) spec3 c [cc3_scratch0, cc3_scratch1]

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ rest3 (F := F) c) ∗ (∃ r, prngReg c r)) := by
  unfold Pipeline.ΦA; rw [scopedRest3_split]; simp only [scM3_0, scM3_1, owns_whole]; try rfl

def accS (c : Dev nD) : (n : ℕ) → n < cfg3.N → Vec F S512x64 .f32
  | 0, h => k3_pay4 (iblk3 V c 1 ⟨0, h⟩) (iblk3 V c 0 ⟨0, h⟩) (k3_pay1 (F := F))
  | n + 1, h => k3_pay4 (iblk3 V c 1 ⟨n + 1, h⟩) (iblk3 V c 0 ⟨n + 1, h⟩) (accS c n (Nat.lt_of_succ_lt h))

def accC (c : Dev nD) : (n : ℕ) → n < cfg3.N → Vec F S512x64 .f32
  | 0, h => k3_pay5 (iblk3 V c 1 ⟨0, h⟩) (k3_pay2 (F := F))
  | n + 1, h => k3_pay5 (iblk3 V c 1 ⟨n + 1, h⟩) (accC c n (Nat.lt_of_succ_lt h))

theorem accS_zero (c : Dev nD) (h : 0 < cfg3.N) :
    accS V c 0 h = k3_pay4 (iblk3 V c 1 ⟨0, h⟩) (iblk3 V c 0 ⟨0, h⟩) (k3_pay1 (F := F)) := rfl
theorem accS_succ (c : Dev nD) (n : ℕ) (h : n + 1 < cfg3.N) :
    accS V c (n + 1) h = k3_pay4 (iblk3 V c 1 ⟨n + 1, h⟩) (iblk3 V c 0 ⟨n + 1, h⟩) (accS V c n (Nat.lt_of_succ_lt h)) := rfl
theorem accC_zero (c : Dev nD) (h : 0 < cfg3.N) :
    accC V c 0 h = k3_pay5 (iblk3 V c 1 ⟨0, h⟩) (k3_pay2 (F := F)) := rfl
theorem accC_succ (c : Dev nD) (n : ℕ) (h : n + 1 < cfg3.N) :
    accC V c (n + 1) h = k3_pay5 (iblk3 V c 1 ⟨n + 1, h⟩) (accC V c n (Nat.lt_of_succ_lt h)) := rfl

def PhiS3 (c : Dev nD) : (n : ℕ) → n ≤ cfg3.N → sProp 𝕄
  | 0, _ => Pipeline.ΦA spec3 c
  | n + 1, hn => iprop(iprop(iprop(owns (c : Thread nD τ) scM3_0 fullShare (accS V c n hn) ∗ owns (c : Thread nD τ) scM3_1 fullShare (accC V c n hn))
      ∗ rest3 (F := F) c) ∗ (∃ r, prngReg c r))

theorem PhiS3_succ (c : Dev nD) (n : ℕ) (hn : n < cfg3.N) :
    PhiS3 V c (n + 1) hn = iprop(iprop(iprop(owns (c : Thread nD τ) scM3_0 fullShare (accS V c n hn) ∗ owns (c : Thread nD τ) scM3_1 fullShare (accC V c n hn))
      ∗ rest3 (F := F) c) ∗ (∃ r, prngReg c r)) := rfl

-- Before point t the accumulators hold what point t - 1 left, or anything before the first point.
theorem PhiS3_open (c : Dev nD) (t : Fin cfg3.N) :
    PhiS3 V c t.val (Nat.le_of_lt t.isLt) ⊢ iprop(∃ s0 s1,
      ⌜accS V c t.val t.isLt = k3_pay4 (iblk3 V c 1 t) (iblk3 V c 0 t) (if cond3_0 (grid3.coords t) then k3_pay1 else s0)
        ∧ accC V c t.val t.isLt = k3_pay5 (iblk3 V c 1 t) (if cond3_0 (grid3.coords t) then k3_pay2 else s1)⌝
      ∗ iprop(iprop(iprop(owns (c : Thread nD τ) scM3_0 fullShare s0 ∗ owns (c : Thread nD τ) scM3_1 fullShare s1) ∗ rest3 (F := F) c) ∗ (∃ r, prngReg c r))) := by
  obtain ⟨_ | n, hn⟩ := t
  · rw [show PhiS3 V c _ _ = Pipeline.ΦA spec3 c from rfl, PhiA3_eq]
    iintro ⟨⟨⟨⟨%s0, H0⟩, ⟨%s1, H1⟩⟩, Hr⟩, Hg⟩
    iexists s0, s1; isplitr
    · ipureintro; rw [if_pos ((hcond3_0 _).mpr rfl), if_pos ((hcond3_0 _).mpr rfl)]; exact ⟨rfl, rfl⟩
    iframe
  · have h := mt (hcond3_0 ⟨n + 1, hn⟩).mp (Nat.succ_ne_zero n)
    refine (Entails.of_eq (PhiS3_succ V c n (Nat.le_of_lt hn))).trans ?_
    iintro H; iexists _, _; isplitr
    · ipureintro; rw [if_neg h, if_neg h]; exact ⟨rfl, rfl⟩
    iexact H

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay6 (accS V c t.val t.isLt) (accC V c t.val t.isLt) (iblk3 V c 2 t) (iblk3 V c 3 t)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem nine_lt3 : 9 < cfg3.N := show 9 < grid3.N by rw [N_3]; decide

theorem after3_4_last (c : Dev nD) (t : Fin cfg3.N) (ht : t.val = 9) :
    (dat3 V c).after 4 t = k3_pay6 (accS V c 9 nine_lt3) (accC V c 9 nine_lt3) (iblk3 V c 2 t) (iblk3 V c 3 t) := by
  obtain ⟨n, hn⟩ := t; obtain rfl : n = 9 := ht; rfl

-- The body leaves every input block as it found it, so each point finds its own block.
theorem before3 (c : Dev nD) (t : Fin cfg3.N) :
    (∀ d, (dat3 V c).before 0 t d = iblk3 V c 0 t) ∧ (∀ d, (dat3 V c).before 1 t d = iblk3 V c 1 t)
      ∧ (∀ d, (dat3 V c).before 2 t d = iblk3 V c 2 t) ∧ (∀ d, (dat3 V c).before 3 t d = iblk3 V c 3 t) := by
  refine ⟨?_, ?_, ?_, ?_⟩ <;> exact fun d =>
    ((dat3 V c).before_in_eq_fetched _ rfl (fun _ => rfl) (fun _ _ _ => rfl) (fun _ => rfl) t d).trans rfl

-- The output block changes at the last point only.
theorem leaves3_4 (c : Dev nD) (t : Fin cfg3.N) (d) :
    owns (c : Thread nD τ) (st3_4 t) fullShare (if cond3_1 (grid3.coords t) then k3_pay6 (accS V c t.val t.isLt) (accC V c t.val t.isLt) (iblk3 V c 2 t) (iblk3 V c 3 t) else (dat3 V c).before 4 t d)
      ⊢ (dat3 V c).leavesExact 4 t := by
  by_cases h : cond3_1 (grid3.coords t)
  · rw [if_pos h]; unfold Dat.leavesExact; rw [liveAt3_4 t h]; exact .rfl
  · rw [if_neg h, Dat.leavesExact_idle _ 4 t (idle3_4 t h).1 (idle3_4 t h).2]
    iintro H; iexists d; iexact H

theorem body_obligation3 (c : Dev nD) : BodyObligation (dat3 (F := F) V c) (defs₀ (F := F)) Variants.none () Set.univ := fun t => by
  rw [bigSep_W3, bigSep_W3]
  show _ ⊢ wp _ _ _ (bodyAt3 t) fun _ => iprop(_ ∗ _ ∗ _ ∗ _ ∗ _ ∗ _ ∗ (dat3 V c).leavesExact 4 t)
  simp only [(before3 V c t).1, (before3 V c t).2.1, (before3 V c t).2.2.1, (before3 V c t).2.2.2]
  rw [show (dat3 V c).after 0 t = iblk3 V c 0 t from rfl, show (dat3 V c).after 1 t = iblk3 V c 1 t from rfl,
    show (dat3 V c).after 2 t = iblk3 V c 2 t from rfl, show (dat3 V c).after 3 t = iblk3 V c 3 t from rfl,
    show (dat3 V c).owesAt () t.succ = (dat3 V c).owesAt () t.castSucc from rfl,
    show (dat3 V c).Φ t.castSucc = PhiS3 V c t.val (Nat.le_of_lt t.isLt) from rfl,
    show (dat3 V c).Φ t.succ = PhiS3 V c (t.val + 1) t.isLt from rfl, PhiS3_succ]
  have h01 : cond3_0 (grid3.coords t) → ¬cond3_1 (grid3.coords t) := fun h0 h1 => by
    have := (hcond3_0 t).mp h0; have := (hcond3_1 t).mp h1; omega
  iintro ⟨HΦ, Ho, ⟨%d0, H0⟩, ⟨%d1, H1⟩, ⟨%d2, H2⟩, ⟨%d3, H3⟩, ⟨%d4, H4⟩⟩
  ihave HΦ := (PhiS3_open V c t) $$ HΦ
  icases HΦ with ⟨%s0, %s1, %hs, ⟨⟨HS0, HS1⟩, Hr⟩, Hg⟩
  iapply (run3 c (grid3.coords t) _ _ _ _ _ _ _ _ _ _ _ _ _ _ h01 (iblk3 V c 0 t) (iblk3 V c 1 t) (iblk3 V c 2 t) (iblk3 V c 3 t)
    _ s0 s1 _ _ hs.1 hs.2 Set.univ _)
  iframe H0 H1 H2 H3 H4 HS0 HS1
  iintro ⟨H0, H1, H2, H3, H4, HS0, HS1⟩
  ihave H4 := (leaves3_4 V c t d4) $$ H4
  iframe

theorem hin3 (c : Dev nD) : Pipeline.ΦA spec3 c ⊢ (dat3 V c).Φ 0 := .rfl

theorem hout3 (c : Dev nD) : (dat3 V c).Φ (Fin.last cfg3.N) ⊢ Pipeline.ΦA spec3 c := by
  rw [show (dat3 V c).Φ (Fin.last cfg3.N) = PhiS3 V c (9 + 1) nine_lt3 from rfl, PhiS3_succ, PhiA3_eq]
  iintro ⟨⟨⟨H0, H1⟩, Hr⟩, Hg⟩
  iframe Hr Hg
  isplitl [H0] <;> iexists _ <;> iassumption

end Cert.KernelIdeal.Hand

end
-- ==== Proof.KI.Run.lean ====
import proofs.«419321_j88648124990635_2_alg».proof.Proof.KI.Embed
import proofs.«419321_j88648124990635_2_alg».proof.Proof.KI.Dense1
import proofs.«419321_j88648124990635_2_alg».proof.Proof.KI.Dense2
import proofs.«419321_j88648124990635_2_alg».proof.Proof.KI.Pool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer contents at the nine boundaries of the program: the launch memory, then alternately what a stretch of host operations leaves and what a kernel region leaves. -/
abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

/-- A region leaves its own arrays at what its grid points wrote back and every other buffer as it found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev W7 : Dev nD → Valuation τ sig (Elt F) := fun c => StableHlo.after hostOps3 (W6 m ρ c)

abbrev V7 : (c : Dev nD) → (b : Ref sig .tc) → Buf (Elt F) ((c : Thread nD τ).loc b) := fun c b => W7 m ρ c b

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb

/-- `b` is one of the sixteen argument arrays. -/
abbrev IsArg (b : Ref sig .tc) : Prop :=
  b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11 ∨ b = main_arg12 ∨ b = main_arg13 ∨ b = main_arg14 ∨ b = main_arg15

theorem ne_arg {v : Ref sig .tc} (hv : ¬ IsArg v) (b : Ref sig .tc) (hb : IsArg b) :
    Proc.devRef (τ := τ) .tc b ≠ Proc.devRef .tc v :=
  fun e => hv (Proc.devRef_injective _ e ▸ hb)

abbrev IsStretch (ops : List (HloOp τ sig (Elt F))) : Prop :=
  ops = hostOps0 ∨ ops = hostOps1 ∨ ops = hostOps2 ∨ ops = hostOps3

/-- Every host operation writes a value buffer of its own, and none of those is an argument: an argument passes a stretch unchanged. -/
theorem keep (ops : List (HloOp τ sig (Elt F))) (hops : IsStretch ops) (Wv : Valuation τ sig (Elt F)) (b : Ref sig .tc) (hb : IsArg b) :
    StableHlo.after ops Wv (Proc.devRef .tc b) = Wv (Proc.devRef .tc b) := by
  refine StableHlo.after_of_forall_not_mem ops Wv fun op hop => ?_
  suffices h : ops.Forall fun op => ∀ b, IsArg b → Proc.devRef (τ := τ) .tc b ∉ op.writes from List.forall_iff_forall_mem.mp h op hop b hb
  rcases hops with rfl | rfl | rfl | rfl <;>
  · simp only [hostOps0, hostOps1, hostOps2, hostOps3, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact ne_arg (by decide)

abbrev adm : (p : Fin 4) → (pcfgs (F := F) p).Adm := fun p => (cfgs p).toPCfg_adm

/-- Each region's proof data are taken at the contents the region is entered with. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps_fresh (ops : List (HloOp τ sig (Elt F))) (hops : IsStretch ops) : ops.Forall fun op => op.fresh = ∅ := by
  rcases hops with rfl | rfl | rfl | rfl <;> (simp only [List.Forall]; repeat' constructor)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W8 m ρ c) ∗ ∃ r, prngReg c r)

section Reg
variable (p : Fin 4) (launch : Pipeline.LaunchFacts (nD := nD) (τ := τ) cfgs p)
  (Wi Wo : Dev nD → Valuation τ sig (Elt F))

local notation "𝔠" => Pipeline.pin (pcfgs (F := F)) adm p

set_option backward.isDefEq.respectTransparency.types false in
/-- A region as one step of the run, for any of the four: entered with every buffer at the contents before it, left with its own arrays at what its grid points wrote back and every other buffer as it was; the region's own facts are the hypotheses. -/
def mkReg
    (hbody : ∀ c, Pipeline.BodyObligationLoose (pdats m ρ p c) (defs₀ (F := F)) 𝒱₀ () Set.univ)
    (howed : ∀ c t, (pdats m ρ p c).owed t = 0) (hrec : ∀ c x, x ∈ (pdats m ρ p c).recorded 0)
    (hq : ∀ c w, (pdats m ρ p c).q w = fullShare)
    (hA : ∀ c w, (pdats m ρ p c).A w = Wi c (Proc.devRef .tc (Pipeline.arrRef (𝔠).spec w)))
    (hin : ∀ c, Pipeline.ΦA (𝔠).spec c ⊢ (pdats m ρ p c).Φ 0)
    (hout : ∀ c, (pdats m ρ p c).Φ (Fin.last (𝔠).N) ⊢ Pipeline.ΦA (𝔠).spec c)
    (harr : ∀ c w, Wo c (Proc.devRef .tc (Pipeline.arrRef (𝔠).spec w)) = (pdats m ρ p c).arrAt w (𝔠).N)
    (hne : ∀ c (b : Ref sig .tc), (∀ w, Pipeline.arrRef (𝔠).spec w ≠ b) → Wo c (Proc.devRef .tc b) = Wi c (Proc.devRef .tc b)) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (𝔠).spec c fun b => Wi c (Proc.devRef .tc b)
  hentry c := by
    rw [Pipeline.ownSems0_none]
    have hsplit := Pipeline.arrays_of_unscopedBufs (p := p) (pcfgs (F := F)) adm (pdats m ρ) launch.win launch.arr_whole c
      ((pdats m ρ p c).share_full (hq c)) (fun b => Wi c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m ρ) ((pdats m ρ p c).share_full (hq c))
      (fun b => Wi c (Proc.devRef .tc b)) (fun b => Wo c (Proc.devRef .tc b)) ((pdats m ρ p c).arrAt · (𝔠).N) (fun w => (harr c w).symm)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

end Reg

set_option backward.isDefEq.respectTransparency.types false in
def reg0 : Pipeline.RegionSeg (pcfgs (F := F)) adm (pdats m ρ) () defs₀ 𝒱₀ L lv 0 :=
  mkReg m ρ 0 launch0 (W1 m ρ) (W2 m ρ) (fun c => (body_obligation0 (V1 m ρ) c).loose) (fun _ _ => rfl) (fun _ _ => trivial)
    (fun _ _ => rfl) (fun _ _ => rfl) (fun _ => .rfl) (fun _ => .rfl) (W2_arr m ρ) (W2_of_ne m ρ)

set_option backward.isDefEq.respectTransparency.types false in
def reg1 : Pipeline.RegionSeg (pcfgs (F := F)) adm (pdats m ρ) () defs₀ 𝒱₀ L lv 1 :=
  mkReg m ρ 1 launch1 (W3 m ρ) (W4 m ρ) (fun c => (body_obligation1 (V3 m ρ) c).loose) (fun _ _ => rfl) (fun _ _ => trivial)
    (fun _ _ => rfl) (fun _ _ => rfl) (fun _ => .rfl) (fun _ => .rfl) (W4_arr m ρ) (W4_of_ne m ρ)

set_option backward.isDefEq.respectTransparency.types false in
def reg2 : Pipeline.RegionSeg (pcfgs (F := F)) adm (pdats m ρ) () defs₀ 𝒱₀ L lv 2 :=
  mkReg m ρ 2 launch2 (W5 m ρ) (W6 m ρ) (fun c => (body_obligation2 (V5 m ρ) c).loose) (fun _ _ => rfl) (fun _ _ => trivial)
    (fun _ _ => rfl) (fun _ _ => rfl) (fun _ => .rfl) (fun _ => .rfl) (W6_arr m ρ) (W6_of_ne m ρ)

set_option backward.isDefEq.respectTransparency.types false in
def reg3 : Pipeline.RegionSeg (pcfgs (F := F)) adm (pdats m ρ) () defs₀ 𝒱₀ L lv 3 :=
  mkReg m ρ 3 launch3 (W7 m ρ) (W8 m ρ) (fun c => (body_obligation3 (V7 m ρ) c).loose) (fun _ _ => rfl) (fun _ _ => trivial)
    (fun _ _ => rfl) (fun _ _ => rfl) (hin3 (V7 m ρ)) (hout3 (V7 m ρ)) (W8_arr m ρ) (W8_of_ne m ρ)

abbrev segs : List (Pipeline.Seg (pcfgs (F := F)) adm (pdats m ρ) () defs₀ 𝒱₀ L lv) :=
  [ .host (hseg hostOps0 hostOps0_sub (hostOps_fresh _ (.inl rfl)) (W0 m ρ)),
    .region (reg0 m ρ),
    .host (hseg hostOps1 hostOps1_sub (hostOps_fresh _ (.inr (.inl rfl))) (W2 m ρ)),
    .region (reg1 m ρ),
    .host (hseg hostOps2 hostOps2_sub (hostOps_fresh _ (.inr (.inr (.inl rfl)))) (W4 m ρ)),
    .region (reg2 m ρ),
    .host (hseg hostOps3 hostOps3_sub (hostOps_fresh _ (.inr (.inr (.inr rfl)))) (W6 m ρ)),
    .region (reg3 m ρ) ]

theorem main_run (c : Dev nD) : main (F := F) c = Pipeline.Seg.run (segs m ρ) := (main_chain c).trans (by chain_rfl)

set_option backward.isDefEq.respectTransparency.types false in

/-- Every weakly fair execution of the program ends, nothing faulting, with every buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Hand

end
-- ==== Proof.KI.RunArgs.lean ====
import proofs.«419321_j88648124990635_2_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem arg_unscoped {b : Ref sig .tc} (hb : IsArg b) : ¬ (Proc.devRef .tc b : DevRef τ sig).isScoped := by
  rcases hb with rfl | rfl | rfl | rfl | rfl | rfl | rfl | rfl | rfl | rfl | rfl | rfl | rfl | rfl | rfl | rfl <;> decide

/-- If a region's exit contents agree with its entry contents on every array of its own that is `b`, the region leaves `b` as it found it. -/
theorem withArrays_keep {gr W : ℕ} (win : Fin W → Pipeline.WinSpec sig gr) (hinj : Function.Injective (Pipeline.arrRef win)) (c : Dev nD)
    (Wv : Valuation τ sig (Elt F)) (A : (w : Fin W) → Buf (Elt F) ((win w).arr.view.loc (c.tc : Thread nD τ))) (b : Ref sig .tc)
    (h : ∀ w, Pipeline.arrRef win w = b → A w = Wv (Proc.devRef .tc (Pipeline.arrRef win w))) :
    Pipeline.withArrays win c Wv A (Proc.devRef .tc b) = Wv (Proc.devRef .tc b) := by
  by_cases hb : ∃ w, Pipeline.arrRef win w = b
  · obtain ⟨w, rfl⟩ := hb
    exact (Pipeline.withArrays_arr win hinj c Wv A w).trans (h w rfl)
  · exact Pipeline.withArrays_of_ne win c Wv A b fun w e => hb ⟨w, e⟩

variable (c : Dev nD) (b : Ref sig .tc) (hb : IsArg b)
include hb

/-- A region has an argument among its arrays only through an input window, whose array it never writes. -/
theorem exit0 : W2 m ρ c (Proc.devRef .tc b) = W1 m ρ c (Proc.devRef .tc b) :=
  withArrays_keep spec0 launch0.win.arr_inj c _ _ b fun w e =>
    ((dat0 (V1 m ρ) c).arrAt_in w ((by decide : ∀ w, IsArg (Pipeline.arrRef spec0 w) → (cfg0.win w).isOut = false) w (e ▸ hb)) _).trans
      (A_eq0 (V1 m ρ) c w)

theorem exit1 : W4 m ρ c (Proc.devRef .tc b) = W3 m ρ c (Proc.devRef .tc b) :=
  W4_of_ne m ρ c b fun w e => (by decide : ∀ w, ¬ IsArg (Pipeline.arrRef spec1 w)) w (e ▸ hb)

theorem exit2 : W6 m ρ c (Proc.devRef .tc b) = W5 m ρ c (Proc.devRef .tc b) :=
  W6_of_ne m ρ c b fun w e => (by decide : ∀ w, ¬ IsArg (Pipeline.arrRef spec2 w)) w (e ▸ hb)

theorem exit3 : W8 m ρ c (Proc.devRef .tc b) = W7 m ρ c (Proc.devRef .tc b) :=
  withArrays_keep spec3 launch3.win.arr_inj c _ _ b fun w e =>
    ((dat3 (V7 m ρ) c).arrAt_in w ((by decide : ∀ w, IsArg (Pipeline.arrRef spec3 w) → (cfg3.win w).isOut = false) w (e ▸ hb)) _).trans
      (A_eq3 (V7 m ρ) c w)

/-- At every boundary an argument array holds the launch contents: walk back boundary by boundary. -/
theorem W1_arg : W1 m ρ c (Proc.devRef .tc b) = m ((c : Thread nD τ).loc b) := keep hostOps0 (.inl rfl) (W0 m ρ c) b hb
theorem W2_arg : W2 m ρ c (Proc.devRef .tc b) = m ((c : Thread nD τ).loc b) := (exit0 m ρ c b hb).trans (W1_arg m ρ c b hb)
theorem W3_arg : W3 m ρ c (Proc.devRef .tc b) = m ((c : Thread nD τ).loc b) :=
  (keep hostOps1 (.inr (.inl rfl)) (W2 m ρ c) b hb).trans (W2_arg m ρ c b hb)
theorem W4_arg : W4 m ρ c (Proc.devRef .tc b) = m ((c : Thread nD τ).loc b) := (exit1 m ρ c b hb).trans (W3_arg m ρ c b hb)
theorem W5_arg : W5 m ρ c (Proc.devRef .tc b) = m ((c : Thread nD τ).loc b) :=
  (keep hostOps2 (.inr (.inr (.inl rfl))) (W4 m ρ c) b hb).trans (W4_arg m ρ c b hb)
theorem W6_arg : W6 m ρ c (Proc.devRef .tc b) = m ((c : Thread nD τ).loc b) := (exit2 m ρ c b hb).trans (W5_arg m ρ c b hb)
theorem W7_arg : W7 m ρ c (Proc.devRef .tc b) = m ((c : Thread nD τ).loc b) :=
  (keep hostOps3 (.inr (.inr (.inr rfl))) (W6 m ρ c) b hb).trans (W6_arg m ρ c b hb)
theorem W8_arg : W8 m ρ c (Proc.devRef .tc b) = m ((c : Thread nD τ).loc b) := (exit3 m ρ c b hb).trans (W7_arg m ρ c b hb)

omit hb

/-- The run with the arguments read back: every buffer at the last boundary's contents, the sixteen arguments as launched. -/
theorem run_args : θ_run defs (onTc (τ := τ) (main (F := F))) ⟨m, fun _ => 0, ρ⟩ (fun r => ∀ c : Dev nD,
      (∀ b ∈ Pipeline.ucRefs τ sig, r.2.mem (((c : Thread nD τ)).1, b) = W8 m ρ c b)
      ∧ ∀ b, IsArg b → r.2.mem ((c.tc : Thread nD τ).loc b) = m ((c.tc : Thread nD τ).loc b)) :=
  (θ_run defs _ _).mono (fun r h c => ⟨h c, fun b hb => (h c _ (mem_uc b (arg_unscoped hb))).trans (W8_arg m ρ c b hb)⟩) (run_main m ρ)

end Cert.KernelIdeal.Hand

end
-- ==== Proof.Spec.lean ====
import Idealize.ShloMosaic.PureOps.Ideal
import Idealize.ShloMosaic.PureOps.Ideal.Laws
import Mathlib.Algebra.BigOperators.Fin
import Mathlib.Algebra.BigOperators.Ring.Finset
import Mathlib.Data.EReal.Operations

noncomputable section

open scoped BigOperators
open Idealize.ShloMosaic

namespace Cert.Spec

def IsReal (x : EReal) : Prop := ∃ r : ℝ, x = (r : EReal)

def hot (i k : ℕ) : EReal := if i = k then 1 else 0

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

namespace IsReal

theorem coe (r : ℝ) : IsReal (r : EReal) := ⟨r, rfl⟩

theorem zero : IsReal 0 := ⟨0, EReal.coe_zero.symm⟩

theorem one : IsReal 1 := ⟨1, EReal.coe_one.symm⟩

theorem add {x y : EReal} (hx : IsReal x) (hy : IsReal y) : IsReal (x + y) := by
  obtain ⟨a, rfl⟩ := hx
  obtain ⟨b, rfl⟩ := hy
  exact ⟨a + b, (EReal.coe_add a b).symm⟩

theorem mul {x y : EReal} (hx : IsReal x) (hy : IsReal y) : IsReal (x * y) := by
  obtain ⟨a, rfl⟩ := hx
  obtain ⟨b, rfl⟩ := hy
  exact ⟨a * b, (EReal.coe_mul a b).symm⟩

theorem sum {ι : Type*} (s : Finset ι) (f : ι → EReal) (h : ∀ i ∈ s, IsReal (f i)) : IsReal (∑ i ∈ s, f i) := by
  classical
  induction s using Finset.induction_on with
  | empty => simpa using zero
  | insert a s ha ih =>
    rw [Finset.sum_insert ha]
    exact add (h a (Finset.mem_insert_self a s)) (ih fun i hi => h i (Finset.mem_insert_of_mem hi))

theorem max {x y : EReal} (hx : IsReal x) (hy : IsReal y) : IsReal (max x y) := by
  rcases max_choice x y with h | h <;> rw [h] <;> assumption

theorem div_of_ne_zero {x : EReal} (hx : IsReal x) {c : ℝ} (hc : c ≠ 0) : IsReal (Ideal.div x (c : EReal)) := by
  rw [Ideal.div_coe hc]
  exact mul hx (coe _)

theorem of_zero_or_one {x : EReal} (h : x = 0 ∨ x = 1) : IsReal x := by
  rcases h with h | h <;> rw [h]
  exacts [zero, one]

end IsReal

theorem sum_append_mul {m n : ℕ} (a a' : Fin m → EReal) (b b' : Fin n → EReal) :
    ∑ k : Fin (m + n), Fin.append a b k * Fin.append a' b' k = (∑ i : Fin m, a i * a' i) + ∑ i : Fin n, b i * b' i := by
  rw [Fin.sum_univ_add]
  simp only [Fin.append_left, Fin.append_right]

section Embed
variable {N : ℕ}

def beside (a b : Fin 8 → EReal) : Fin (8 + 8) → EReal := Fin.append a b

def embed (se : Fin 16 → Fin 8 → EReal) (ce : Fin 8 → Fin 8 → EReal) (pw : Fin (8 + 8) → Fin 32 → EReal) (pb : Fin 32 → EReal)
    (s : Fin N → Fin 16) (c : Fin N → Fin 8) (n : Fin N) (j : Fin 32) : EReal :=
  max ((∑ k : Fin (8 + 8), beside (se (s n)) (ce (c n)) k * pw k j) + pb j) 0

def embedHot (se : Fin 16 → Fin 8 → EReal) (ce : Fin 8 → Fin 8 → EReal) (pw : Fin (8 + 8) → Fin 32 → EReal) (pb : Fin 32 → EReal)
    (s : Fin N → Fin 16) (c : Fin N → Fin 8) (n : Fin N) (j : Fin 32) : EReal :=
  max ((∑ k : Fin (8 + 8), beside (fun a => ∑ r : Fin 16, hot (s n).val r.val * se r a)
      (fun a => ∑ r : Fin 8, hot (c n).val r.val * ce r a) k * pw k j) + pb j) 0

/-- A one-hot row times a table, summed, is the table's row: `0 * x = 0` and `1 * x = x`. -/
theorem hot_sum {R : ℕ} (T : Fin R → EReal) (i : Fin R) : ∑ r : Fin R, hot i.val r.val * T r = T i := by
  simp only [hot, Fin.val_inj, ite_mul, one_mul, zero_mul, Finset.sum_ite_eq, Finset.mem_univ, if_true]

theorem embedHot_eq (se : Fin 16 → Fin 8 → EReal) (ce : Fin 8 → Fin 8 → EReal) (pw : Fin (8 + 8) → Fin 32 → EReal) (pb : Fin 32 → EReal)
    (s : Fin N → Fin 16) (c : Fin N → Fin 8) : embedHot se ce pw pb s c = embed se ce pw pb s c := by
  funext n j
  unfold embedHot embed
  have h1 : (fun a => ∑ r : Fin 16, hot (s n).val r.val * se r a) = se (s n) :=
    funext fun a => hot_sum (fun r => se r a) (s n)
  have h2 : (fun a => ∑ r : Fin 8, hot (c n).val r.val * ce r a) = ce (c n) :=
    funext fun a => hot_sum (fun r => ce r a) (c n)
  rw [h1, h2]

theorem embed_real (se : Fin 16 → Fin 8 → EReal) (ce : Fin 8 → Fin 8 → EReal) (pw : Fin (8 + 8) → Fin 32 → EReal) (pb : Fin 32 → EReal)
    (s : Fin N → Fin 16) (c : Fin N → Fin 8) (hse : ∀ r a, IsReal (se r a)) (hce : ∀ r a, IsReal (ce r a))
    (hpw : ∀ k j, IsReal (pw k j)) (hpb : ∀ j, IsReal (pb j)) (n : Fin N) (j : Fin 32) : IsReal (embed se ce pw pb s c n j) := by
  unfold embed
  refine IsReal.max (IsReal.add (IsReal.sum _ _ fun k _ => IsReal.mul ?_ (hpw k j)) (hpb j)) IsReal.zero
  unfold beside
  refine Fin.addCases (fun i => ?_) (fun i => ?_) k
  · rw [Fin.append_left]; exact hse _ _
  · rw [Fin.append_right]; exact hce _ _

end Embed

section Layer
variable {N E D : ℕ}

def into (dst : Fin E → BitVec 32) (n : Fin N) : Finset (Fin E) :=
  Finset.univ.filter fun e => (dst e).toInt = (n.val : ℤ)

def count (mr : Fin E → EReal) (dst : Fin E → BitVec 32) (n : Fin N) : EReal :=
  max (∑ e ∈ into dst n, mr e) 1

def message (xs : Fin E → Fin D → EReal) (W : Fin D → Fin 64 → EReal) (mr : Fin E → EReal) (dst : Fin E → BitVec 32)
    (n : Fin N) (j : Fin 64) : EReal :=
  Ideal.div (∑ e ∈ into dst n, (∑ k : Fin D, xs e k * W k j) * mr e) (count mr dst n)

def layer (x : Fin N → Fin D → EReal) (xs : Fin E → Fin D → EReal) (m : Fin 3 → Fin E → EReal) (dst : Fin E → BitVec 32)
    (root : Fin D → Fin 64 → EReal) (rel : Fin 3 → Fin D → Fin 64 → EReal) (b : Fin 64 → EReal) (n : Fin N) (j : Fin 64) : EReal :=
  max (((((∑ k : Fin D, x n k * root k j) + b j) + message xs (rel 0) (m 0) dst n j) + message xs (rel 1) (m 1) dst n j)
    + message xs (rel 2) (m 2) dst n j) 0

def mean (xs : Fin E → Fin D → EReal) (mr : Fin E → EReal) (dst : Fin E → BitVec 32) (n : Fin N) (k : Fin D) : EReal :=
  Ideal.div (∑ e ∈ into dst n, xs e k * mr e) (count mr dst n)

def beside4 (a b c d : Fin D → EReal) : Fin (D + D + D + D) → EReal := Fin.append (Fin.append (Fin.append a b) c) d

def layerCat (x : Fin N → Fin D → EReal) (xs : Fin E → Fin D → EReal) (m : Fin 3 → Fin E → EReal) (dst : Fin E → BitVec 32)
    (root : Fin D → Fin 64 → EReal) (rel : Fin 3 → Fin D → Fin 64 → EReal) (b : Fin 64 → EReal) (n : Fin N) (j : Fin 64) : EReal :=
  max ((∑ kk : Fin (D + D + D + D), beside4 (x n) (mean xs (m 0) dst n) (mean xs (m 1) dst n) (mean xs (m 2) dst n) kk
      * beside4 (fun k => root k j) (fun k => rel 0 k j) (fun k => rel 1 k j) (fun k => rel 2 k j) kk) + b j) 0

theorem count_coe (mr : Fin E → ℝ) (dst : Fin E → BitVec 32) (n : Fin N) :
    count (fun e => (mr e : EReal)) dst n = ((Max.max (∑ e ∈ into dst n, mr e) 1 : ℝ) : EReal) := by
  unfold count
  rw [coe_max, coe_sum, EReal.coe_one]

theorem count_real (mr : Fin E → EReal) (dst : Fin E → BitVec 32) (hm : ∀ e, mr e = 0 ∨ mr e = 1) (n : Fin N) :
    ∃ c : ℝ, c ≠ 0 ∧ count mr dst n = (c : EReal) := by
  choose mrr hmrr using fun e => IsReal.of_zero_or_one (hm e)
  obtain rfl : mr = fun e => (mrr e : EReal) := funext hmrr
  refine ⟨Max.max (∑ e ∈ into dst n, mrr e) 1, ?_, count_coe mrr dst n⟩
  have : (1 : ℝ) ≤ Max.max (∑ e ∈ into dst n, mrr e) 1 := le_max_right _ _
  intro h
  rw [h] at this
  exact absurd this (by norm_num)

theorem message_real (xs : Fin E → Fin D → EReal) (W : Fin D → Fin 64 → EReal) (mr : Fin E → EReal) (dst : Fin E → BitVec 32)
    (hxs : ∀ e k, IsReal (xs e k)) (hW : ∀ k j, IsReal (W k j)) (hm : ∀ e, mr e = 0 ∨ mr e = 1) (n : Fin N) (j : Fin 64) :
    IsReal (message xs W mr dst n j) := by
  obtain ⟨c, hc0, hc⟩ := count_real mr dst hm n
  unfold message
  rw [hc]
  refine IsReal.div_of_ne_zero (IsReal.sum _ _ fun e _ => IsReal.mul (IsReal.sum _ _ fun k _ => IsReal.mul (hxs e k) (hW k j)) ?_) hc0
  exact IsReal.of_zero_or_one (hm e)

/-- A masked mean times a weight, summed over the features, is the masked mean of the weighted features: linearity of finite sums, which on the extended reals needs every entry to be a real number. -/
theorem mean_mul_eq_message (xs : Fin E → Fin D → EReal) (W : Fin D → Fin 64 → EReal) (mr : Fin E → EReal) (dst : Fin E → BitVec 32)
    (hxs : ∀ e k, IsReal (xs e k)) (hW : ∀ k j, IsReal (W k j)) (hm : ∀ e, mr e = 0 ∨ mr e = 1) (n : Fin N) (j : Fin 64) :
    ∑ k : Fin D, mean xs mr dst n k * W k j = message xs W mr dst n j := by
  choose xr hxr using hxs
  choose wr hwr using hW
  choose mrr hmrr using fun e => IsReal.of_zero_or_one (hm e)
  obtain rfl : xs = fun e k => (xr e k : EReal) := funext fun e => funext fun k => hxr e k
  obtain rfl : W = fun k j => (wr k j : EReal) := funext fun k => funext fun j => hwr k j
  obtain rfl : mr = fun e => (mrr e : EReal) := funext hmrr
  have hc0 : (Max.max (∑ e ∈ into dst n, mrr e) 1 : ℝ) ≠ 0 := by
    have : (1 : ℝ) ≤ Max.max (∑ e ∈ into dst n, mrr e) 1 := le_max_right _ _
    intro h
    rw [h] at this
    exact absurd this (by norm_num)
  unfold mean message
  rw [count_coe]
  simp only [Ideal.div_coe hc0]
  simp only [← EReal.coe_mul, ← coe_sum]
  congr 1
  simp only [Finset.sum_mul]
  rw [Finset.sum_comm]
  refine Finset.sum_congr rfl fun e _ => Finset.sum_congr rfl fun k _ => ?_
  ring

/-- Four blocks side by side times four stacked weights is the sum of the four products. -/
theorem layerCat_eq (x : Fin N → Fin D → EReal) (xs : Fin E → Fin D → EReal) (m : Fin 3 → Fin E → EReal) (dst : Fin E → BitVec 32)
    (root : Fin D → Fin 64 → EReal) (rel : Fin 3 → Fin D → Fin 64 → EReal) (b : Fin 64 → EReal)
    (hx : ∀ n k, IsReal (x n k)) (hxs : ∀ e k, IsReal (xs e k)) (hm : ∀ r e, m r e = 0 ∨ m r e = 1)
    (hroot : ∀ k j, IsReal (root k j)) (hrel : ∀ r k j, IsReal (rel r k j)) (hb : ∀ j, IsReal (b j)) :
    layerCat (N := N) x xs m dst root rel b = layer x xs m dst root rel b := by
  funext n j
  unfold layerCat layer beside4
  rw [sum_append_mul, sum_append_mul, sum_append_mul]
  rw [mean_mul_eq_message xs (rel 0) (m 0) dst hxs (hrel 0) (hm 0) n j,
    mean_mul_eq_message xs (rel 1) (m 1) dst hxs (hrel 1) (hm 1) n j,
    mean_mul_eq_message xs (rel 2) (m 2) dst hxs (hrel 2) (hm 2) n j]
  congr 1
  ac_rfl

theorem layer_real (x : Fin N → Fin D → EReal) (xs : Fin E → Fin D → EReal) (m : Fin 3 → Fin E → EReal) (dst : Fin E → BitVec 32)
    (root : Fin D → Fin 64 → EReal) (rel : Fin 3 → Fin D → Fin 64 → EReal) (b : Fin 64 → EReal)
    (hx : ∀ n k, IsReal (x n k)) (hxs : ∀ e k, IsReal (xs e k)) (hm : ∀ r e, m r e = 0 ∨ m r e = 1)
    (hroot : ∀ k j, IsReal (root k j)) (hrel : ∀ r k j, IsReal (rel r k j)) (hb : ∀ j, IsReal (b j)) (n : Fin N) (j : Fin 64) :
    IsReal (layer x xs m dst root rel b n j) := by
  unfold layer
  refine IsReal.max (IsReal.add (IsReal.add (IsReal.add (IsReal.add ?_ (hb j)) ?_) ?_) ?_) IsReal.zero
  · exact IsReal.sum _ _ fun k _ => IsReal.mul (hx n k) (hroot k j)
  · exact message_real xs (rel 0) (m 0) dst hxs (hrel 0) (hm 0) n j
  · exact message_real xs (rel 1) (m 1) dst hxs (hrel 1) (hm 1) n j
  · exact message_real xs (rel 2) (m 2) dst hxs (hrel 2) (hm 2) n j

end Layer

section Pool
variable {G : ℕ}

def members {N : ℕ} (bt : Fin N → BitVec 32) (g : Fin G) : Finset (Fin N) :=
  Finset.univ.filter fun n => (bt n).toInt = (g.val : ℤ)

def pooled {N : ℕ} (x : Fin N → Fin 64 → EReal) (bt : Fin N → BitVec 32) (cw : Fin 64 → Fin 10 → EReal) (cb : Fin 10 → EReal)
    (g : Fin G) (o : Fin 10) : EReal :=
  (∑ j : Fin 64, Ideal.div (∑ n ∈ members bt g, x n j) (max (∑ n ∈ members bt g, (1 : EReal)) 1) * cw j o) + cb o

def hotSum {T B : ℕ} (x : Fin T → Fin B → Fin 64 → EReal) (bt : Fin T → Fin B → BitVec 32) (g : Fin G) (j : Fin 64) : (t : ℕ) → t ≤ T → EReal
  | 0, _ => 0
  | t + 1, h => hotSum x bt g j t (Nat.le_of_succ_le h) + ∑ r : Fin B, (if bt ⟨t, h⟩ r = BitVec.ofNat 32 g.val then (1 : EReal) else 0) * x ⟨t, h⟩ r j

def pooledHot {T B : ℕ} (x : Fin T → Fin B → Fin 64 → EReal) (bt : Fin T → Fin B → BitVec 32) (cw : Fin 64 → Fin 10 → EReal) (cb : Fin 10 → EReal)
    (g : Fin G) (o : Fin 10) : EReal :=
  (∑ j : Fin 64, Ideal.div (hotSum x bt g j T le_rfl) (max (hotSum (fun _ _ _ => 1) bt g j T le_rfl) 1) * cw j o) + cb o

theorem toInt_eq_iff (w : BitVec 32) (g : ℕ) (hg : g < 2 ^ 31) : w.toInt = (g : ℤ) ↔ w = BitVec.ofNat 32 g := by
  constructor
  · intro h
    apply BitVec.eq_of_toNat_eq
    rw [BitVec.toInt_eq_toNat_cond] at h
    rw [BitVec.toNat_ofNat]
    have := w.isLt
    split at h <;> omega
  · rintro rfl
    rw [BitVec.toInt_eq_toNat_cond, BitVec.toNat_ofNat]
    split <;> omega

theorem hotSum_eq_sum {T B : ℕ} (x : Fin T → Fin B → Fin 64 → EReal) (bt : Fin T → Fin B → BitVec 32) (g : Fin G) (j : Fin 64) :
    ∀ (t : ℕ) (h : t ≤ T), hotSum x bt g j t h
      = ∑ i : Fin t, ∑ r : Fin B, (if bt (Fin.castLE h i) r = BitVec.ofNat 32 g.val then (1 : EReal) else 0) * x (Fin.castLE h i) r j
  | 0, _ => by simp [hotSum]
  | t + 1, h => by
    rw [hotSum, hotSum_eq_sum x bt g j t (Nat.le_of_succ_le h), Fin.sum_univ_castSucc]
    rfl

/-- Summing a one-hot column times the rows, one block of rows after another, is the sum over the graph's members: re-index the double sum. -/
theorem hotSum_rows {T B : ℕ} (hG : G ≤ 2 ^ 31) (y : Fin (T * B) → Fin 64 → EReal) (bt : Fin (T * B) → BitVec 32)
    (row : Fin T → Fin B → Fin (T * B)) (hrow : ∀ t r, (row t r).val = t.val * B + r.val) (g : Fin G) (j : Fin 64) :
    hotSum (fun t r => y (row t r)) (fun t r => bt (row t r)) g j T le_rfl = ∑ n ∈ members bt g, y n j := by
  have hg : g.val < 2 ^ 31 := lt_of_lt_of_le g.isLt hG
  have hrow' : ∀ t r, row t r = finProdFinEquiv (t, r) := fun t r =>
    Fin.ext (by rw [hrow]; show _ = r.val + B * t.val; rw [Nat.mul_comm, Nat.add_comm])
  rw [hotSum_eq_sum]
  unfold members
  rw [Finset.sum_filter, ← finProdFinEquiv.sum_comp, Fintype.sum_prod_type]
  refine Finset.sum_congr rfl fun t _ => Finset.sum_congr rfl fun r _ => ?_
  simp only [Fin.castLE_rfl, id, hrow', toInt_eq_iff _ _ hg, ite_mul, one_mul, zero_mul]

theorem pooledHot_eq {T B : ℕ} (hG : G ≤ 2 ^ 31) (x : Fin (T * B) → Fin 64 → EReal) (bt : Fin (T * B) → BitVec 32)
    (cw : Fin 64 → Fin 10 → EReal) (cb : Fin 10 → EReal) (row : Fin T → Fin B → Fin (T * B))
    (hrow : ∀ t r, (row t r).val = t.val * B + r.val) :
    pooledHot (G := G) (fun t r => x (row t r)) (fun t r => bt (row t r)) cw cb = pooled x bt cw cb := by
  funext g o
  unfold pooledHot pooled
  congr 1
  refine Finset.sum_congr rfl fun j _ => ?_
  have h1 : hotSum (fun _ _ _ => (1 : EReal)) (fun t r => bt (row t r)) g j T le_rfl = ∑ n ∈ members bt g, (1 : EReal) :=
    hotSum_rows hG (fun _ _ => (1 : EReal)) bt row hrow g j
  rw [hotSum_rows hG x bt row hrow g j, h1]

end Pool

end Cert.Spec

end
-- ==== Proof.LibRank2.lean ====
import Idealize.ShloMosaic.Lib.Pipeline.Value
import Idealize.ShloMosaic.Lib.ValueIdx
import Idealize.ShloMosaic.Lib.KernelVsHost
import Idealize.ShloMosaic.PureOps.Ideal.Laws

noncomputable section

open scoped BigOperators

namespace Idealize.ShloMosaic.Rank2

open Idealize.ShloMosaic Idealize.ShloMosaic.ValueIdx

variable {m k n : ℕ} {φ₁ φ₂ : FTy} {α : Type}

-- a rank-2 index is its two coordinates
theorem congr_idx2 {a b : ℕ} (f : (⟨2, ![a, b]⟩ : Shape).Idx → α) (i i' : (⟨2, ![a, b]⟩ : Shape).Idx)
    (h0 : (i 0).val = (i' 0).val) (h1 : (i 1).val = (i' 1).val) : f i = f i' :=
  congrArg f (funext fun x => Fin.ext (match x with | ⟨0, _⟩ => h0 | ⟨1, _⟩ => h1))

-- rows against columns: the one contracted axis is the left factor's columns and the right factor's rows
theorem matmul_apply (D : DotDims ⟨2, ![m, k]⟩ ⟨2, ![k, n]⟩ ⟨2, ![m, n]⟩) (w) (hD : D = ⟨[1], [0], [0], [1], [], [], w⟩)
    (L : FVec Ideal ⟨2, ![m, k]⟩ φ₁) (R : FVec Ideal ⟨2, ![k, n]⟩ φ₂) (p : Fin m) (q : Fin n) :
    matmul D none L R (constant ⟨2, ![m, n]⟩ .f32 0x00000000#32) (ix2 p q) = ∑ j : Fin k, L (ix2 p j) * R (ix2 j q) := by
  subst hD
  simp only [matmul]
  rw [Ideal.matmul_constant_zero_apply, ← Equiv.sum_comp (contrEquiv1 _ k rfl rfl).symm]
  refine Finset.sum_congr rfl fun j _ => ?_
  have hj := contrEquiv1_symm_val (⟨[1], [0], [0], [1], [], [], w⟩ : DotDims ⟨2, ![m, k]⟩ ⟨2, ![k, n]⟩ ⟨2, ![m, n]⟩) k rfl rfl j
  refine congrArg₂ (· * ·) (congr_idx2 L _ (ix2 p j) ?_ ((DotDims.lhsIdx_val_of_single _ rfl _ _).trans hj))
    (congr_idx2 R _ (ix2 j q) ((DotDims.rhsIdx_val_of_single _ rfl _ _).trans hj) ?_)
  · unfold DotDims.lhsIdx
    rw [dif_neg List.not_mem_nil, dif_pos (List.mem_singleton_self _)]
    rfl
  · unfold DotDims.rhsIdx
    rw [dif_neg List.not_mem_nil, dif_pos (List.mem_singleton_self _)]
    rfl

-- columns against columns: the contracted axis is the rows of both factors
theorem matmulT_apply (D : DotDims ⟨2, ![k, m]⟩ ⟨2, ![k, n]⟩ ⟨2, ![m, n]⟩) (w) (hD : D = ⟨[0], [0], [1], [1], [], [], w⟩)
    (L : FVec Ideal ⟨2, ![k, m]⟩ φ₁) (R : FVec Ideal ⟨2, ![k, n]⟩ φ₂) (p : Fin m) (q : Fin n) :
    matmul D none L R (constant ⟨2, ![m, n]⟩ .f32 0x00000000#32) (ix2 p q) = ∑ j : Fin k, L (ix2 j p) * R (ix2 j q) := by
  subst hD
  simp only [matmul]
  rw [Ideal.matmul_constant_zero_apply, ← Equiv.sum_comp (contrEquiv1 _ k rfl rfl).symm]
  refine Finset.sum_congr rfl fun j _ => ?_
  have hj := contrEquiv1_symm_val (⟨[0], [0], [1], [1], [], [], w⟩ : DotDims ⟨2, ![k, m]⟩ ⟨2, ![k, n]⟩ ⟨2, ![m, n]⟩) k rfl rfl j
  refine congrArg₂ (· * ·) (congr_idx2 L _ (ix2 j p) ((DotDims.lhsIdx_val_of_single _ rfl _ _).trans hj) ?_)
    (congr_idx2 R _ (ix2 j q) ((DotDims.rhsIdx_val_of_single _ rfl _ _).trans hj) ?_)
  · unfold DotDims.lhsIdx
    rw [dif_neg List.not_mem_nil, dif_pos (List.mem_singleton_self _)]
    rfl
  · unfold DotDims.rhsIdx
    rw [dif_neg List.not_mem_nil, dif_pos (List.mem_singleton_self _)]
    rfl

theorem offsets_zero : (![0, 0] : Fin 2 → Nat) = fun _ => 0 := funext fun a => by fin_cases a <;> rfl

-- one row under every row
theorem broadcastRow_apply (x : (⟨2, ![1, n]⟩ : Shape).Idx → α) (h : (⟨2, ![1, n]⟩ : Shape).Broadcasts ⟨2, ![m, n]⟩) (p : Fin m) (q : Fin n) :
    broadcastTo ⟨2, ![m, n]⟩ x h (ix2 p q) = x (ix2 0 q) :=
  broadcastTo_apply x h (ix2 p q) (ix2 0 q) (fun a => match a with
    | ⟨0, _⟩ => rfl
    | ⟨1, _⟩ => by show q.val = if n = 1 then 0 else q.val; have := q.isLt; split <;> omega)

-- one column beside every column
theorem broadcastCol_apply (x : (⟨2, ![m, 1]⟩ : Shape).Idx → α) (h : (⟨2, ![m, 1]⟩ : Shape).Broadcasts ⟨2, ![m, n]⟩) (p : Fin m) (q : Fin n) :
    broadcastTo ⟨2, ![m, n]⟩ x h (ix2 p q) = x (ix2 p 0) :=
  broadcastTo_apply x h (ix2 p q) (ix2 p 0) (fun a => match a with
    | ⟨0, _⟩ => by show p.val = if m = 1 then 0 else p.val; have := p.isLt; split <;> omega
    | ⟨1, _⟩ => rfl)

-- four equal blocks side by side: the piece that holds column j is found by splitting j three times
theorem concat4_apply {d : ℕ} (a b c e : (⟨2, ![n, d]⟩ : Shape).Idx → α) (h : Shape.Concatenates [(⟨2, ![n, d]⟩ : Shape), (⟨2, ![n, d]⟩ : Shape), (⟨2, ![n, d]⟩ : Shape), (⟨2, ![n, d]⟩ : Shape)] (⟨2, ![n, d + d + d + d]⟩ : Shape) 1) (p : Fin n) (j : Fin (d + d + d + d)) :
    concatenate (⟨2, ![n, d + d + d + d]⟩ : Shape) 1 [⟨(⟨2, ![n, d]⟩ : Shape), a⟩, ⟨(⟨2, ![n, d]⟩ : Shape), b⟩, ⟨(⟨2, ![n, d]⟩ : Shape), c⟩, ⟨(⟨2, ![n, d]⟩ : Shape), e⟩] h (ix2 p j)
      = Fin.append (Fin.append (Fin.append (fun i => a (ix2 p i)) fun i => b (ix2 p i)) fun i => c (ix2 p i)) (fun i => e (ix2 p i)) j := by
  have hi : ∀ (i : Fin d) (y : (⟨2, ![n, d + d + d + d]⟩ : Shape).Idx), (y 0).val = p.val → ∀ bb : Fin 2, bb.cast rfl ≠ (1 : Fin 2) →
      ((ix2 p i : (⟨2, ![n, d]⟩ : Shape).Idx) bb).val = (y (bb.cast rfl)).val := by
    intro i y hy bb hbb
    match bb, hbb with
    | ⟨0, _⟩, _ => exact hy.symm
    | ⟨1, _⟩, hbb => exact absurd (Fin.ext rfl) hbb
  have key := concatenate_apply_piece (t := (⟨2, ![n, d + d + d + d]⟩ : Shape)) 1 [⟨(⟨2, ![n, d]⟩ : Shape), a⟩, ⟨(⟨2, ![n, d]⟩ : Shape), b⟩, ⟨(⟨2, ![n, d]⟩ : Shape), c⟩, ⟨(⟨2, ![n, d]⟩ : Shape), e⟩] h
  refine Fin.addCases (fun i3 => ?_) (fun i => ?_) j
  · rw [Fin.append_left]
    refine Fin.addCases (fun i2 => ?_) (fun i => ?_) i3
    · rw [Fin.append_left]
      refine Fin.addCases (fun i => ?_) (fun i => ?_) i2
      · rw [Fin.append_left]
        exact key _ 0 (show (0 : ℕ) < 4 by omega) _ a rfl rfl 0 rfl (ix2 p i) (hi i _ rfl) (Nat.zero_add _)
      · rw [Fin.append_right]
        exact key _ 1 (show (1 : ℕ) < 4 by omega) _ b rfl rfl d rfl (ix2 p i) (hi i _ rfl) rfl
    · rw [Fin.append_right]
      exact key _ 2 (show (2 : ℕ) < 4 by omega) _ c rfl rfl (d + d) rfl (ix2 p i) (hi i _ rfl) rfl
  · rw [Fin.append_right]
    exact key _ 3 (show (3 : ℕ) < 4 by omega) _ e rfl rfl (d + (d + d)) rfl (ix2 p i) (hi i _ rfl) (by show d + (d + d) + i.val = d + d + d + i.val; omega)

-- a comparison bit widened to a word and converted is 1 on equality and 0 elsewhere
theorem cmpi_indicator (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  rw [toInt_setWidth_bit]
  by_cases h : a = b <;> simp [IntOp.cmpi, h]

-- a column of words against the column numbers: entry (p, r) is 1 where row p holds the word of r
theorem onehot_apply {N : ℕ} (v : (⟨2, ![N, 1]⟩ : Shape).Idx → BitVec 32) (hI : (⟨2, ![N, m]⟩ : Shape).Iotas .tc 32 [1]) (hB : (⟨2, ![N, 1]⟩ : Shape).Broadcasts (⟨2, ![N, m]⟩ : Shape)) (h1 : 1 < 32) (p : Fin N) (r : Fin m) :
    (sitofp .f32 (extui 32 (cmpi .eq (broadcastTo (⟨2, ![N, m]⟩ : Shape) v hB) (iota .tc (⟨2, ![N, m]⟩ : Shape) 32 [1] hI)) h1) : FVec Ideal (⟨2, ![N, m]⟩ : Shape) .f32) (ix2 p r)
      = if v (ix2 p 0) = BitVec.ofNat 32 r.val then 1 else 0 := by
  rw [sitofp_apply, extui_apply]
  show FloatOps.sitofp (F := Ideal) .f32 ((IntOp.cmpi .eq (broadcastTo (⟨2, ![N, m]⟩ : Shape) v hB (ix2 p r)) (iota .tc (⟨2, ![N, m]⟩ : Shape) 32 [1] hI (ix2 p r))).setWidth 32) = _
  rw [broadcastCol_apply, iota_single_apply]
  exact cmpi_indicator _ _

-- the same when row p holds the word of a number: words of numbers below 2 ^ 32 are equal exactly when the numbers are
theorem onehot_apply_nat {N : ℕ} (v : (⟨2, ![N, 1]⟩ : Shape).Idx → BitVec 32) (hI : (⟨2, ![N, m]⟩ : Shape).Iotas .tc 32 [1]) (hB : (⟨2, ![N, 1]⟩ : Shape).Broadcasts (⟨2, ![N, m]⟩ : Shape)) (h1 : 1 < 32) (p : Fin N) (r : Fin m)
    (sv : ℕ) (hs : sv < 2 ^ 32) (hm : m ≤ 2 ^ 32) (h0 : v (ix2 p 0) = BitVec.ofNat 32 sv) :
    (sitofp .f32 (extui 32 (cmpi .eq (broadcastTo (⟨2, ![N, m]⟩ : Shape) v hB) (iota .tc (⟨2, ![N, m]⟩ : Shape) 32 [1] hI)) h1) : FVec Ideal (⟨2, ![N, m]⟩ : Shape) .f32) (ix2 p r) = if sv = r.val then 1 else 0 := by
  rw [onehot_apply, h0]
  exact if_congr (by rw [← BitVec.toNat_inj, BitVec.toNat_ofNat, BitVec.toNat_ofNat, Nat.mod_eq_of_lt hs, Nat.mod_eq_of_lt (by have := r.isLt; omega)]) rfl rfl

end Idealize.ShloMosaic.Rank2

end
-- ==== Proof.KI.ValEmbed.lean ====
import proofs.«419321_j88648124990635_2_alg».proof.Proof.KI.Embed
import proofs.«419321_j88648124990635_2_alg».proof.Proof.Spec
import proofs.«419321_j88648124990635_2_alg».proof.Proof.LibRank2

noncomputable section

namespace Cert.KernelIdeal.Val

open Idealize.ShloMosaic Idealize.ShloMosaic.TcCoe Idealize.SL.Sem Idealize.ShloMosaic.Rank2
open Idealize.ShloMosaic.Pipeline (Dat)
open Cert.KernelIdeal Cert.KernelIdeal.Gen Cert.KernelIdeal.Hand Idealize.ShloMosaic.ValueIdx
open scoped BigOperators

-- two blocks side by side: the first block's entry on the first eight columns, the second's on the last eight
theorem beside_apply (x₁ x₂ : FVec Ideal S10000x8 .f32) (hc : Shape.Concatenates [S10000x8, S10000x8] S10000x16 1)
    (p : Fin 10000) (k : Fin (8 + 8)) :
    concatenate S10000x16 1 [⟨S10000x8, x₁⟩, ⟨S10000x8, x₂⟩] hc (ix2 p k)
      = Fin.append (fun a : Fin 8 => x₁ (ix2 p a)) (fun a : Fin 8 => x₂ (ix2 p a)) k := by
  induction k using Fin.addCases with
  | left k0 =>
    rw [Fin.append_left]
    exact concatenate_pair_apply_left 1 x₁ x₂ hc _ rfl (ix2 p k0) (fun b => by
      match b with
      | ⟨0, _⟩ => rfl
      | ⟨1, _⟩ => rfl)
  | right k0 =>
    rw [Fin.append_right]
    exact concatenate_pair_apply_right 1 x₁ x₂ hc _ rfl rfl (ix2 p k0) (fun b hb => by
      match b with
      | ⟨0, _⟩ => rfl
      | ⟨1, _⟩ => exact absurd rfl hb) (by show k0.val + 8 = 8 + k0.val; omega)

-- each table row is picked out by a one-hot sum; the format changes are the identity on the extended reals
theorem pay_apply (v0 v1 : Vec Ideal S10000x1 .i32) (v8 : Vec Ideal S16x8 .f32) (v17 : Vec Ideal S8x8 .f32)
    (v22 : Vec Ideal S16x32 .f32) (v25 : Vec Ideal S1x32 .f32) (p : Fin 10000) (q : Fin 32) (sv : Fin 16) (cv : Fin 8)
    (h0 : v0 (ix2 p 0) = BitVec.ofNat 32 sv.val) (h1 : v1 (ix2 p 0) = BitVec.ofNat 32 cv.val) :
    k0_pay1 (F := Ideal) v0 v1 v8 v17 v22 v25 (ix2 p q) =
      max ((∑ k : Fin (8 + 8), Fin.append
          (fun a : Fin 8 => ∑ r : Fin 16, (if sv.val = r.val then (1 : EReal) else 0) * v8 (ix2 r a))
          (fun a : Fin 8 => ∑ r : Fin 8, (if cv.val = r.val then (1 : EReal) else 0) * v17 (ix2 r a)) k * v22 (ix2 k q))
        + v25 (ix2 0 q)) 0 := by
  dsimp only [k0_pay1]
  rw [maximumf_apply, addf_apply, broadcast_apply, matmul_apply dot_S10000x16_S16x32_S10000x32_1_0_0_1_n_n _ rfl, shapeCast_self, broadcastRow_apply]
  refine congrArg₂ max (congrArg (· + v25 (ix2 0 q)) (Finset.sum_congr rfl fun k _ => ?_)) Ideal.ofBits_zero_f32
  rw [truncf_apply, truncf_apply]
  refine congrArg (· * v22 (ix2 k q)) ((beside_apply _ _ _ p k).trans ?_)
  congr 1 <;> funext a
  · rw [matmul_apply dot_S10000x16_S16x8_S10000x8_1_0_0_1_n_n _ rfl]
    refine Finset.sum_congr rfl fun r _ => ?_
    rw [truncf_apply, onehot_apply_nat v0 _ _ _ p r sv.val (by have := sv.isLt; omega) (by decide) h0, truncf_apply]
  · rw [matmul_apply dot_S10000x8_S8x8_S10000x8_1_0_0_1_n_n _ rfl]
    refine Finset.sum_congr rfl fun r _ => ?_
    rw [truncf_apply, onehot_apply_nat v1 _ _ _ p r cv.val (by have := cv.isLt; omega) (by decide) h1, truncf_apply]

variable (V : (c : Dev nD) → (b : Ref sig .tc) → Buf (Elt Ideal) ((c : Thread nD τ).loc b))

theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

def embedOf (c : Dev nD) (s : Fin 100000 → Fin 16) (col : Fin 100000 → Fin 8) : S100000x32.Idx → EReal := fun i =>
  Cert.Spec.embedHot (fun r a => (V c main_arg4 : S16x8.Idx → EReal) (ix2 r a)) (fun r a => (V c main_arg5 : S8x8.Idx → EReal) (ix2 r a))
    (fun k j => (V c main_arg6 : S16x32.Idx → EReal) (ix2 k j)) (fun j => (V c main_v0 : S1x32.Idx → EReal) (ix2 0 j)) s col (i 0) (i 1)

def rowAt0 (t : Fin cfg0.N) (p : Fin 10000) : Fin 100000 :=
  ⟨t.val * 10000 + p.val, by have h : t.val < 10 := lt_of_lt_of_eq t.isLt N_0; have := p.isLt; omega⟩

-- a block entry sits in its array at block index times block size plus its own coordinate; a block at index zero is its whole array
theorem flushed_eq (c : Dev nD) (s : Fin 100000 → Fin 16) (col : Fin 100000 → Fin 8)
    (hs : ∀ n : Fin 100000, (V c main_arg0 : S100000x2.Idx → BitVec 32) (ix2 n 0) = BitVec.ofNat 32 (s n).val)
    (hcol : ∀ n : Fin 100000, (V c main_arg0 : S100000x2.Idx → BitVec 32) (ix2 n 1) = BitVec.ofNat 32 (col n).val)
    (t : Fin cfg0.N) :
    (dat0 (F := Ideal) V c).flushed 5 t = ((cfg0.win 5).blk t).view.read (Elt Ideal) (embedOf V c s col) := by
  obtain ⟨f00, f01, f10, f11, f20, f21, f30, f31, f40, f41, f50, f51⟩ := index_facts0 t
  show (cfg0.win 5).cut (grid0.coords t) ((dat0 V c).after 5 t) = _
  rw [after0_5]
  unfold out0_5
  rw [View.canon_unit_zero offsets_zero]
  simp only [View.ld_unit_zero (S := S16x8) offsets_zero, View.ld_unit_zero (S := S8x8) offsets_zero,
    View.ld_unit_zero (S := S16x32) offsets_zero, View.ld_unit_zero (S := S1x32) offsets_zero]
  funext j
  obtain ⟨p, q, rfl⟩ : ∃ (p : Fin 10000) (q : Fin 32), j = ix2 p q := ⟨j 0, j 1, eq_ix2 j⟩
  have hb : ∀ b : Fin 2, (iblk0 V c 0 t : S10000x2.Idx → BitVec 32) (ix2 p b) = (V c main_arg0 : S100000x2.Idx → BitVec 32) (ix2 (rowAt0 t p) b) := fun b =>
    congr_idx2 (V c main_arg0 : S100000x2.Idx → BitVec 32) _ _ ((win0_0.rect_emb_val t _ 0).trans (by rw [f00]; rfl)) (win0_0.rect_emb_val_of_index_zero t 1 f01 _)
  have e1 : (iblk0 V c 1 t : Vec Ideal S16x8 .f32) = (V c main_arg4 : S16x8.Idx → EReal) := funext fun y =>
    congr_idx2 (V c main_arg4 : S16x8.Idx → EReal) _ _ (win0_1.rect_emb_val_of_index_zero t 0 f10 y) (win0_1.rect_emb_val_of_index_zero t 1 f11 y)
  have e2 : (iblk0 V c 2 t : Vec Ideal S8x8 .f32) = (V c main_arg5 : S8x8.Idx → EReal) := funext fun y =>
    congr_idx2 (V c main_arg5 : S8x8.Idx → EReal) _ _ (win0_2.rect_emb_val_of_index_zero t 0 f20 y) (win0_2.rect_emb_val_of_index_zero t 1 f21 y)
  have e3 : (iblk0 V c 3 t : Vec Ideal S16x32 .f32) = (V c main_arg6 : S16x32.Idx → EReal) := funext fun y =>
    congr_idx2 (V c main_arg6 : S16x32.Idx → EReal) _ _ (win0_3.rect_emb_val_of_index_zero t 0 f30 y) (win0_3.rect_emb_val_of_index_zero t 1 f31 y)
  have e4 : (iblk0 V c 4 t : Vec Ideal S1x32 .f32) = (V c main_v0 : S1x32.Idx → EReal) := funext fun y =>
    congr_idx2 (V c main_v0 : S1x32.Idx → EReal) _ _ (win0_4.rect_emb_val_of_index_zero t 0 f40 y) (win0_4.rect_emb_val_of_index_zero t 1 f41 y)
  have e5 : embedOf V c s col (((cfg0.win 5).blk t).view.emb (ix2 p q)) = embedOf V c s col (ix2 (rowAt0 t p) q) :=
    congr_idx2 (embedOf V c s col) _ _ ((win0_5.rect_emb_val t _ 0).trans (by rw [f50]; rfl)) (win0_5.rect_emb_val_of_index_zero t 1 f51 _)
  refine Eq.trans ?_ e5.symm
  rw [e1, e2, e3, e4]
  have l0 : View.ld (iblk0 V c 0 t) r0_shapeId (ix2 p 0) = (iblk0 V c 0 t : S10000x2.Idx → BitVec 32) (ix2 p 0) :=
    congr_idx2 (iblk0 V c 0 t : S10000x2.Idx → BitVec 32) _ _ (by show 0 + 1 * p.val = p.val; omega) rfl
  have l1 : View.ld (iblk0 V c 0 t) r0_colorId (ix2 p 0) = (iblk0 V c 0 t : S10000x2.Idx → BitVec 32) (ix2 p 1) :=
    congr_idx2 (iblk0 V c 0 t : S10000x2.Idx → BitVec 32) _ _ (by show 0 + 1 * p.val = p.val; omega) rfl
  exact pay_apply _ _ _ _ _ _ p q (s (rowAt0 t p)) (col (rowAt0 t p)) (l0.trans ((hb 0).trans (hs _))) (l1.trans ((hb 1).trans (hcol _)))

-- row r lies in the block of point r / 10000
theorem covered (i : S100000x32.Idx) : ∃ t : Fin cfg0.N, (cfg0.win 5).flush t = true ∧ i ∈ ((cfg0.win 5).blk t).view.set := by
  have hi0 : (i 0).val < 100000 := (i 0).isLt
  have hi1 : (i 1).val < 32 := (i 1).isLt
  obtain ⟨t, ht⟩ : ∃ t : Fin cfg0.N, t.val = (i 0).val / 10000 := ⟨⟨_, by have hN : cfg0.N = 10 := N_0; omega⟩, rfl⟩
  obtain ⟨-, -, -, -, -, -, -, -, -, -, f50, f51⟩ := index_facts0 t
  refine ⟨t, flush0_5 _, ?_⟩
  show i ∈ ((View.whole main_v1).slice (win0_5.rect t)).set
  rw [View.set_slice_whole, Rect.mem_set_unit]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 32 ≤ (i 1).val ∧ (i 1).val < win0_5.index t (1 : Fin 2) * 32 + 32; omega

theorem embed_array (c : Dev nD) (s : Fin 100000 → Fin 16) (col : Fin 100000 → Fin 8)
    (hs : ∀ n : Fin 100000, (V c main_arg0 : S100000x2.Idx → BitVec 32) (ix2 n 0) = BitVec.ofNat 32 (s n).val)
    (hcol : ∀ n : Fin 100000, (V c main_arg0 : S100000x2.Idx → BitVec 32) (ix2 n 1) = BitVec.ofNat 32 (col n).val) :
    ((dat0 (F := Ideal) V c).arrAt 5 cfg0.N : S100000x32.Idx → EReal) = fun i =>
      Cert.Spec.embedHot (fun r a => (V c main_arg4 : S16x8.Idx → EReal) (ix2 r a)) (fun r a => (V c main_arg5 : S8x8.Idx → EReal) (ix2 r a))
        (fun k j => (V c main_arg6 : S16x32.Idx → EReal) (ix2 k j)) (fun j => (V c main_v0 : S1x32.Idx → EReal) (ix2 0 j)) s col (i 0) (i 1) :=
  (dat0 (F := Ideal) V c).arrAt_eq_of_cover 5 (embedOf V c s col) (fun t _ => flushed_eq V c s col hs hcol t) covered

end Cert.KernelIdeal.Val

end
-- ==== Proof.KI.ValDense1.lean ====
import proofs.«419321_j88648124990635_2_alg».proof.Proof.KI.Dense1
import proofs.«419321_j88648124990635_2_alg».proof.Proof.Spec
import proofs.«419321_j88648124990635_2_alg».proof.Proof.LibRank2

noncomputable section

namespace Cert.KernelIdeal.Val

open Cert.KernelIdeal Cert.KernelIdeal.Gen Cert.KernelIdeal.Hand
open Idealize.ShloMosaic Idealize.ShloMosaic.ValueIdx Idealize.ShloMosaic.TcCoe Idealize.SL.Sem Idealize.ShloMosaic.Rank2
open Idealize.ShloMosaic.Pipeline (Dat)
open scoped BigOperators

-- on the extended reals a format change is the identity and a product into zero is the plain sum
theorem pay1_apply (x0 x1 x2 x3 : Vec Ideal S5000x32 .f32) (x4 : Vec Ideal S128x64 .f32) (x5 : Vec Ideal S1x64 .f32) (p : Fin 5000) (q : Fin 64) :
    k1_pay1 x0 x1 x2 x3 x4 x5 (ix2 p q)
      = max ((∑ kk : Fin (32 + 32 + 32 + 32),
          Cert.Spec.beside4 (fun k : Fin 32 => x0 (ix2 p k)) (fun k : Fin 32 => x1 (ix2 p k)) (fun k : Fin 32 => x2 (ix2 p k))
            (fun k : Fin 32 => x3 (ix2 p k)) kk * x4 (ix2 kk q)) + x5 (ix2 0 q)) 0 := by
  unfold k1_pay1
  simp only [shapeCast_self]
  rw [maximumf_apply, addf_apply, broadcast_apply, matmul_apply dot_S5000x128_S128x64_S5000x64_1_0_0_1_n_n _ rfl, broadcastRow_apply]
  simp only [truncf_apply, shapeCast_self]
  exact congrArg₂ max (congrArg (· + _) (Finset.sum_congr rfl fun kk _ => congrArg (· * _) (concat4_apply x0 x1 x2 x3 _ p kk))) Ideal.ofBits_zero_f32

variable (V : (c : Dev nD) → (b : Ref sig .tc) → Buf (Elt Ideal) ((c : Thread nD τ).loc b))

def dense1G (c : Dev nD) : S100000x64.Idx → EReal := fun i =>
  max ((∑ kk : Fin (32 + 32 + 32 + 32), Cert.Spec.beside4 (fun k => (V c main_v1 : S100000x32.Idx → EReal) (ix2 (i 0) k)) (fun k => (V c main_v29 : S100000x32.Idx → EReal) (ix2 (i 0) k))
      (fun k => (V c main_v46 : S100000x32.Idx → EReal) (ix2 (i 0) k)) (fun k => (V c main_v63 : S100000x32.Idx → EReal) (ix2 (i 0) k)) kk
      * (V c main_v70 : S128x64.Idx → EReal) (ix2 kk (i 1))) + (V c main_v71 : S1x64.Idx → EReal) (ix2 0 (i 1))) 0

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

def rowAt1 (t : Fin cfg1.N) (p : Fin 5000) : Fin 100000 :=
  ⟨t.val * 5000 + p.val, by have h : t.val < 20 := lt_of_lt_of_eq t.isLt N_1; have := p.isLt; omega⟩

-- a block entry sits in its array at block index times block size plus its own coordinate, on each axis
theorem flushed1_eq (c : Dev nD) (t : Fin cfg1.N) :
    (dat1 V c).flushed 6 t = ((cfg1.win 6).blk t).view.read (Elt Ideal) (dense1G V c) := by
  obtain ⟨e00, e01, e10, e11, e20, e21, e30, e31, e40, e41, e50, e51, e60, e61⟩ := idx_facts1 t
  show (cfg1.win 6).cut (grid1.coords t) ((dat1 V c).after 6 t) = _
  rw [after1_6]
  unfold out1_6 wholeOut1 wholeIn1 wholeWt1 wholeBias1
  rw [View.canon_unit_zero offsets_zero]
  simp only [View.ld_unit_zero (S := S5000x32) offsets_zero, View.ld_unit_zero (S := S128x64) offsets_zero, View.ld_unit_zero (S := S1x64) offsets_zero]
  funext j
  obtain ⟨p, q, rfl⟩ : ∃ (p : Fin 5000) (q : Fin 64), j = ix2 p q := ⟨j 0, j 1, eq_ix2 j⟩
  refine (pay1_apply (iblk1 V c 0 t) (iblk1 V c 1 t) (iblk1 V c 2 t) (iblk1 V c 3 t) (iblk1 V c 4 t) (iblk1 V c 5 t) p q).trans ?_
  have h0 : ∀ k : Fin 32, (iblk1 V c 0 t : S5000x32.Idx → EReal) (ix2 p k) = (V c main_v1 : S100000x32.Idx → EReal) (ix2 (rowAt1 t p) k) := fun k =>
    congr_idx2 (V c main_v1 : S100000x32.Idx → EReal) _ _ ((win1_0.rect_emb_val t _ 0).trans (by rw [e00]; rfl)) (win1_0.rect_emb_val_of_index_zero t 1 e01 _)
  have h1 : ∀ k : Fin 32, (iblk1 V c 1 t : S5000x32.Idx → EReal) (ix2 p k) = (V c main_v29 : S100000x32.Idx → EReal) (ix2 (rowAt1 t p) k) := fun k =>
    congr_idx2 (V c main_v29 : S100000x32.Idx → EReal) _ _ ((win1_1.rect_emb_val t _ 0).trans (by rw [e10]; rfl)) (win1_1.rect_emb_val_of_index_zero t 1 e11 _)
  have h2 : ∀ k : Fin 32, (iblk1 V c 2 t : S5000x32.Idx → EReal) (ix2 p k) = (V c main_v46 : S100000x32.Idx → EReal) (ix2 (rowAt1 t p) k) := fun k =>
    congr_idx2 (V c main_v46 : S100000x32.Idx → EReal) _ _ ((win1_2.rect_emb_val t _ 0).trans (by rw [e20]; rfl)) (win1_2.rect_emb_val_of_index_zero t 1 e21 _)
  have h3 : ∀ k : Fin 32, (iblk1 V c 3 t : S5000x32.Idx → EReal) (ix2 p k) = (V c main_v63 : S100000x32.Idx → EReal) (ix2 (rowAt1 t p) k) := fun k =>
    congr_idx2 (V c main_v63 : S100000x32.Idx → EReal) _ _ ((win1_3.rect_emb_val t _ 0).trans (by rw [e30]; rfl)) (win1_3.rect_emb_val_of_index_zero t 1 e31 _)
  have h4 : ∀ kk : Fin (32 + 32 + 32 + 32), (iblk1 V c 4 t : S128x64.Idx → EReal) (ix2 kk q) = (V c main_v70 : S128x64.Idx → EReal) (ix2 kk q) := fun kk =>
    congr_idx2 (V c main_v70 : S128x64.Idx → EReal) _ _ (win1_4.rect_emb_val_of_index_zero t 0 e40 _) (win1_4.rect_emb_val_of_index_zero t 1 e41 _)
  have h5 : (iblk1 V c 5 t : S1x64.Idx → EReal) (ix2 0 q) = (V c main_v71 : S1x64.Idx → EReal) (ix2 0 q) :=
    congr_idx2 (V c main_v71 : S1x64.Idx → EReal) _ _ (win1_5.rect_emb_val_of_index_zero t 0 e50 _) (win1_5.rect_emb_val_of_index_zero t 1 e51 _)
  have h6 : dense1G V c (((cfg1.win 6).blk t).view.emb (ix2 p q)) = dense1G V c (ix2 (rowAt1 t p) q) :=
    congr_idx2 (dense1G V c) _ _ ((win1_6.rect_emb_val t _ 0).trans (by rw [e60]; rfl)) (win1_6.rect_emb_val_of_index_zero t 1 e61 _)
  refine Eq.trans ?_ h6.symm
  simp only [h0, h1, h2, h3, h4, h5]
  rfl

-- row r lies in the block of point r / 5000
theorem cover1 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ : ∃ t : Fin cfg1.N, t.val = (i 0).val / 5000 := ⟨⟨_, by have hN : cfg1.N = 20 := N_1; omega⟩, rfl⟩
  obtain ⟨-, -, -, -, -, -, -, -, -, -, -, -, e60, e61⟩ := idx_facts1 t
  refine ⟨t, flush1_6 _, ?_⟩
  show i ∈ ((View.whole main_v72).slice (win1_6.rect t)).set
  rw [View.set_slice_whole, Rect.mem_set_unit]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

theorem dense1_array (c : Dev nD) :
    ((dat1 (F := Ideal) V c).arrAt 6 cfg1.N : S100000x64.Idx → EReal) = fun i =>
      max ((∑ kk : Fin (32 + 32 + 32 + 32), Cert.Spec.beside4 (fun k => (V c main_v1 : S100000x32.Idx → EReal) (ix2 (i 0) k)) (fun k => (V c main_v29 : S100000x32.Idx → EReal) (ix2 (i 0) k))
          (fun k => (V c main_v46 : S100000x32.Idx → EReal) (ix2 (i 0) k)) (fun k => (V c main_v63 : S100000x32.Idx → EReal) (ix2 (i 0) k)) kk
          * (V c main_v70 : S128x64.Idx → EReal) (ix2 kk (i 1))) + (V c main_v71 : S1x64.Idx → EReal) (ix2 0 (i 1))) 0 :=
  (dat1 V c).arrAt_eq_of_cover 6 (dense1G V c) (fun t _ => flushed1_eq V c t) cover1

end Cert.KernelIdeal.Val

end
-- ==== Proof.KI.ValDense2.lean ====
import proofs.«419321_j88648124990635_2_alg».proof.Proof.KI.Dense2
import proofs.«419321_j88648124990635_2_alg».proof.Proof.Spec
import proofs.«419321_j88648124990635_2_alg».proof.Proof.LibRank2

noncomputable section

namespace Cert.KernelIdeal.Val

open Cert.KernelIdeal Cert.KernelIdeal.Gen Cert.KernelIdeal.Hand
open Idealize.ShloMosaic Idealize.ShloMosaic.ValueIdx Idealize.ShloMosaic.TcCoe Idealize.SL.Sem Idealize.ShloMosaic.Rank2
open Idealize.ShloMosaic.Pipeline (Dat)
open scoped BigOperators

-- on the extended reals a format change is the identity and a product into zero is the plain sum
theorem pay2_apply (x0 x1 x2 x3 : Vec Ideal S5000x64 .f32) (x4 : Vec Ideal S256x64 .f32) (x5 : Vec Ideal S1x64 .f32) (p : Fin 5000) (q : Fin 64) :
    k2_pay1 x0 x1 x2 x3 x4 x5 (ix2 p q)
      = max ((∑ kk : Fin (64 + 64 + 64 + 64),
          Cert.Spec.beside4 (fun k : Fin 64 => x0 (ix2 p k)) (fun k : Fin 64 => x1 (ix2 p k)) (fun k : Fin 64 => x2 (ix2 p k))
            (fun k : Fin 64 => x3 (ix2 p k)) kk * x4 (ix2 kk q)) + x5 (ix2 0 q)) 0 := by
  unfold k2_pay1
  simp only [shapeCast_self]
  rw [maximumf_apply, addf_apply, broadcast_apply, matmul_apply dot_S5000x256_S256x64_S5000x64_1_0_0_1_n_n _ rfl, broadcastRow_apply]
  simp only [truncf_apply, shapeCast_self]
  exact congrArg₂ max (congrArg (· + _) (Finset.sum_congr rfl fun kk _ => congrArg (· * _) (concat4_apply x0 x1 x2 x3 _ p kk))) Ideal.ofBits_zero_f32

variable (V : (c : Dev nD) → (b : Ref sig .tc) → Buf (Elt Ideal) ((c : Thread nD τ).loc b))

def dense2G (c : Dev nD) : S100000x64.Idx → EReal := fun i =>
  max ((∑ kk : Fin (64 + 64 + 64 + 64), Cert.Spec.beside4 (fun k => (V c main_v72 : S100000x64.Idx → EReal) (ix2 (i 0) k)) (fun k => (V c main_v100 : S100000x64.Idx → EReal) (ix2 (i 0) k))
      (fun k => (V c main_v117 : S100000x64.Idx → EReal) (ix2 (i 0) k)) (fun k => (V c main_v134 : S100000x64.Idx → EReal) (ix2 (i 0) k)) kk
      * (V c main_v141 : S256x64.Idx → EReal) (ix2 kk (i 1))) + (V c main_v142 : S1x64.Idx → EReal) (ix2 0 (i 1))) 0

theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

def rowAt2 (t : Fin cfg2.N) (p : Fin 5000) : Fin 100000 :=
  ⟨t.val * 5000 + p.val, by have h : t.val < 20 := lt_of_lt_of_eq t.isLt N_2; have := p.isLt; omega⟩

-- a block entry sits in its array at block index times block size plus its own coordinate, on each axis
theorem flushed2_eq (c : Dev nD) (t : Fin cfg2.N) :
    (dat2 V c).flushed 6 t = ((cfg2.win 6).blk t).view.read (Elt Ideal) (dense2G V c) := by
  obtain ⟨e00, e01, e10, e11, e20, e21, e30, e31, e40, e41, e50, e51, e60, e61⟩ := idx_facts2 t
  show (cfg2.win 6).cut (grid2.coords t) ((dat2 V c).after 6 t) = _
  rw [after2_6]
  unfold out2_6 wholeOut2 wholeIn2 wholeWt2 wholeBias2
  rw [View.canon_unit_zero offsets_zero]
  simp only [View.ld_unit_zero (S := S5000x64) offsets_zero, View.ld_unit_zero (S := S256x64) offsets_zero, View.ld_unit_zero (S := S1x64) offsets_zero]
  funext j
  obtain ⟨p, q, rfl⟩ : ∃ (p : Fin 5000) (q : Fin 64), j = ix2 p q := ⟨j 0, j 1, eq_ix2 j⟩
  refine (pay2_apply (iblk2 V c 0 t) (iblk2 V c 1 t) (iblk2 V c 2 t) (iblk2 V c 3 t) (iblk2 V c 4 t) (iblk2 V c 5 t) p q).trans ?_
  have h0 : ∀ k : Fin 64, (iblk2 V c 0 t : S5000x64.Idx → EReal) (ix2 p k) = (V c main_v72 : S100000x64.Idx → EReal) (ix2 (rowAt2 t p) k) := fun k =>
    congr_idx2 (V c main_v72 : S100000x64.Idx → EReal) _ _ ((win2_0.rect_emb_val t _ 0).trans (by rw [e00]; rfl)) (win2_0.rect_emb_val_of_index_zero t 1 e01 _)
  have h1 : ∀ k : Fin 64, (iblk2 V c 1 t : S5000x64.Idx → EReal) (ix2 p k) = (V c main_v100 : S100000x64.Idx → EReal) (ix2 (rowAt2 t p) k) := fun k =>
    congr_idx2 (V c main_v100 : S100000x64.Idx → EReal) _ _ ((win2_1.rect_emb_val t _ 0).trans (by rw [e10]; rfl)) (win2_1.rect_emb_val_of_index_zero t 1 e11 _)
  have h2 : ∀ k : Fin 64, (iblk2 V c 2 t : S5000x64.Idx → EReal) (ix2 p k) = (V c main_v117 : S100000x64.Idx → EReal) (ix2 (rowAt2 t p) k) := fun k =>
    congr_idx2 (V c main_v117 : S100000x64.Idx → EReal) _ _ ((win2_2.rect_emb_val t _ 0).trans (by rw [e20]; rfl)) (win2_2.rect_emb_val_of_index_zero t 1 e21 _)
  have h3 : ∀ k : Fin 64, (iblk2 V c 3 t : S5000x64.Idx → EReal) (ix2 p k) = (V c main_v134 : S100000x64.Idx → EReal) (ix2 (rowAt2 t p) k) := fun k =>
    congr_idx2 (V c main_v134 : S100000x64.Idx → EReal) _ _ ((win2_3.rect_emb_val t _ 0).trans (by rw [e30]; rfl)) (win2_3.rect_emb_val_of_index_zero t 1 e31 _)
  have h4 : ∀ kk : Fin (64 + 64 + 64 + 64), (iblk2 V c 4 t : S256x64.Idx → EReal) (ix2 kk q) = (V c main_v141 : S256x64.Idx → EReal) (ix2 kk q) := fun kk =>
    congr_idx2 (V c main_v141 : S256x64.Idx → EReal) _ _ (win2_4.rect_emb_val_of_index_zero t 0 e40 _) (win2_4.rect_emb_val_of_index_zero t 1 e41 _)
  have h5 : (iblk2 V c 5 t : S1x64.Idx → EReal) (ix2 0 q) = (V c main_v142 : S1x64.Idx → EReal) (ix2 0 q) :=
    congr_idx2 (V c main_v142 : S1x64.Idx → EReal) _ _ (win2_5.rect_emb_val_of_index_zero t 0 e50 _) (win2_5.rect_emb_val_of_index_zero t 1 e51 _)
  have h6 : dense2G V c (((cfg2.win 6).blk t).view.emb (ix2 p q)) = dense2G V c (ix2 (rowAt2 t p) q) :=
    congr_idx2 (dense2G V c) _ _ ((win2_6.rect_emb_val t _ 0).trans (by rw [e60]; rfl)) (win2_6.rect_emb_val_of_index_zero t 1 e61 _)
  refine Eq.trans ?_ h6.symm
  simp only [h0, h1, h2, h3, h4, h5]
  rfl

-- row r lies in the block of point r / 5000
theorem cover2 (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  obtain ⟨t, ht⟩ : ∃ t : Fin cfg2.N, t.val = (i 0).val / 5000 := ⟨⟨_, by have hN : cfg2.N = 20 := N_2; omega⟩, rfl⟩
  obtain ⟨-, -, -, -, -, -, -, -, -, -, -, -, e60, e61⟩ := idx_facts2 t
  refine ⟨t, flush2_6 _, ?_⟩
  show i ∈ ((View.whole main_v143).slice (win2_6.rect t)).set
  rw [View.set_slice_whole, Rect.mem_set_unit]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

theorem dense2_array (c : Dev nD) :
    ((dat2 (F := Ideal) V c).arrAt 6 cfg2.N : S100000x64.Idx → EReal) = fun i =>
      max ((∑ kk : Fin (64 + 64 + 64 + 64), Cert.Spec.beside4 (fun k => (V c main_v72 : S100000x64.Idx → EReal) (ix2 (i 0) k)) (fun k => (V c main_v100 : S100000x64.Idx → EReal) (ix2 (i 0) k))
          (fun k => (V c main_v117 : S100000x64.Idx → EReal) (ix2 (i 0) k)) (fun k => (V c main_v134 : S100000x64.Idx → EReal) (ix2 (i 0) k)) kk
          * (V c main_v141 : S256x64.Idx → EReal) (ix2 kk (i 1))) + (V c main_v142 : S1x64.Idx → EReal) (ix2 0 (i 1))) 0 :=
  (dat2 V c).arrAt_eq_of_cover 6 (dense2G V c) (fun t _ => flushed2_eq V c t) cover2

end Cert.KernelIdeal.Val

end
-- ==== Proof.Net.lean ====
import proofs.«419321_j88648124990635_2_alg».proof.Proof.Spec
import Idealize.ShloMosaic.Lib.ValueIdx

noncomputable section

open scoped BigOperators
open Idealize.ShloMosaic Idealize.ShloMosaic.ValueIdx

namespace Cert.Net

/-- The row a signed word indexes in a table of `N` rows: a negative word counts from the end, and the result is clamped into the table. -/
def row (N : ℕ) (hN : 0 < N) (w : BitVec 32) : Fin N :=
  ⟨min ((if w.slt 0#32 then w + BitVec.ofNat 32 N else w).toInt.toNat) (N - 1), by omega⟩

theorem row_val_of_lt (N : ℕ) (hN : 0 < N) (hN31 : N < 2 ^ 31) (w : BitVec 32) (hw : w.toNat < N) : (row N hN w).val = w.toNat := by
  have hint : w.toInt = (w.toNat : ℤ) := BitVec.toInt_eq_toNat_of_lt (by omega)
  have hs : w.slt 0#32 = false := by
    rw [BitVec.slt_eq_decide, hint, BitVec.toInt_zero]
    exact decide_eq_false (by omega)
  show min ((if w.slt 0#32 = true then w + BitVec.ofNat 32 N else w).toInt.toNat) (N - 1) = w.toNat
  rw [hs, if_neg Bool.false_ne_true, hint, Int.toNat_natCast]
  omega

section
variable (a0 : (⟨2, ![100000, 2]⟩ : Shape).Idx → BitVec 32) (a1 : (⟨2, ![2, 1600000]⟩ : Shape).Idx → BitVec 32)
  (a2 : (⟨1, ![1600000]⟩ : Shape).Idx → BitVec 32) (a3 : (⟨1, ![100000]⟩ : Shape).Idx → BitVec 32)
  (a4 : (⟨2, ![16, 8]⟩ : Shape).Idx → EReal) (a5 : (⟨2, ![8, 8]⟩ : Shape).Idx → EReal) (a6 : (⟨2, ![16, 32]⟩ : Shape).Idx → EReal)
  (a7 : (⟨1, ![32]⟩ : Shape).Idx → EReal) (a8 : (⟨2, ![32, 64]⟩ : Shape).Idx → EReal) (a9 : (⟨3, ![3, 32, 64]⟩ : Shape).Idx → EReal)
  (a10 : (⟨1, ![64]⟩ : Shape).Idx → EReal) (a11 : (⟨2, ![64, 64]⟩ : Shape).Idx → EReal) (a12 : (⟨3, ![3, 64, 64]⟩ : Shape).Idx → EReal)
  (a13 : (⟨1, ![64]⟩ : Shape).Idx → EReal) (a14 : (⟨2, ![64, 10]⟩ : Shape).Idx → EReal) (a15 : (⟨1, ![10]⟩ : Shape).Idx → EReal)

def src (e : Fin 1600000) : BitVec 32 := a1 (ix2 0 e)
def dst (e : Fin 1600000) : BitVec 32 := a1 (ix2 1 e)

def msk (r : Fin 3) (e : Fin 1600000) : EReal := if a2 (ix1 e) = BitVec.ofNat 32 r.val then 1 else 0

def gath {D : ℕ} (x : Fin 100000 → Fin D → EReal) (e : Fin 1600000) (k : Fin D) : EReal := x (row 100000 (by decide) (src a1 e)) k

def shapeRow (n : Fin 100000) : Fin 16 := row 16 (by decide) (a0 (ix2 n 0))
def colorRow (n : Fin 100000) : Fin 8 := row 8 (by decide) (a0 (ix2 n 1))

def graph (n : Fin 100000) : BitVec 32 := a3 (ix1 n)

/-- The network in the reference's form, stage by stage, as functions of the sixteen argument arrays. -/
def x0 : Fin 100000 → Fin 32 → EReal :=
  Spec.embed (fun r a => a4 (ix2 r a)) (fun r a => a5 (ix2 r a)) (fun k j => a6 (ix2 k j)) (fun j => a7 (ix1 j)) (shapeRow a0) (colorRow a0)
def x1 : Fin 100000 → Fin 64 → EReal :=
  Spec.layer (x0 a0 a4 a5 a6 a7) (gath a1 (x0 a0 a4 a5 a6 a7)) (msk a2) (dst a1) (fun k j => a8 (ix2 k j)) (fun r k j => a9 (ix3 r k j)) (fun j => a10 (ix1 j))
def x2 : Fin 100000 → Fin 64 → EReal :=
  Spec.layer (x1 a0 a1 a2 a4 a5 a6 a7 a8 a9 a10) (gath a1 (x1 a0 a1 a2 a4 a5 a6 a7 a8 a9 a10)) (msk a2) (dst a1) (fun k j => a11 (ix2 k j)) (fun r k j => a12 (ix3 r k j)) (fun j => a13 (ix1 j))
def out : (⟨2, ![512, 10]⟩ : Shape).Idx → EReal := fun i =>
  Spec.pooled (G := 512) (x2 a0 a1 a2 a4 a5 a6 a7 a8 a9 a10 a11 a12 a13) (graph a3) (fun j o => a14 (ix2 j o)) (fun o => a15 (ix1 o)) (i 0) (i 1)

/-- The same stages in the kernels' form: one-hot sums, side-by-side blocks, block-by-block pooling. -/
def x0K : Fin 100000 → Fin 32 → EReal :=
  Spec.embedHot (fun r a => a4 (ix2 r a)) (fun r a => a5 (ix2 r a)) (fun k j => a6 (ix2 k j)) (fun j => a7 (ix1 j)) (shapeRow a0) (colorRow a0)
def x1K : Fin 100000 → Fin 64 → EReal :=
  Spec.layerCat (x0K a0 a4 a5 a6 a7) (gath a1 (x0K a0 a4 a5 a6 a7)) (msk a2) (dst a1) (fun k j => a8 (ix2 k j)) (fun r k j => a9 (ix3 r k j)) (fun j => a10 (ix1 j))
def x2K : Fin 100000 → Fin 64 → EReal :=
  Spec.layerCat (x1K a0 a1 a2 a4 a5 a6 a7 a8 a9 a10) (gath a1 (x1K a0 a1 a2 a4 a5 a6 a7 a8 a9 a10)) (msk a2) (dst a1) (fun k j => a11 (ix2 k j)) (fun r k j => a12 (ix3 r k j)) (fun j => a13 (ix1 j))

def blockRow (t : Fin 10) (r : Fin 10000) : Fin (10 * 10000) := ⟨t.val * 10000 + r.val, by have := t.isLt; have := r.isLt; omega⟩
def outK : (⟨2, ![512, 10]⟩ : Shape).Idx → EReal := fun i =>
  Spec.pooledHot (G := 512) (T := 10) (B := 10000) (fun t r => x2K a0 a1 a2 a4 a5 a6 a7 a8 a9 a10 a11 a12 a13 (blockRow t r))
    (fun t r => graph a3 (blockRow t r)) (fun j o => a14 (ix2 j o)) (fun o => a15 (ix1 o)) (i 0) (i 1)

/-- The two forms agree stage by stage; each stage's output is a real number, which the next stage's linearity needs. -/
theorem outK_eq_out (h4 : ∀ i, Spec.IsReal (a4 i)) (h5 : ∀ i, Spec.IsReal (a5 i)) (h6 : ∀ i, Spec.IsReal (a6 i)) (h7 : ∀ i, Spec.IsReal (a7 i))
    (h8 : ∀ i, Spec.IsReal (a8 i)) (h9 : ∀ i, Spec.IsReal (a9 i)) (h10 : ∀ i, Spec.IsReal (a10 i)) (h11 : ∀ i, Spec.IsReal (a11 i))
    (h12 : ∀ i, Spec.IsReal (a12 i)) (h13 : ∀ i, Spec.IsReal (a13 i)) :
    outK a0 a1 a2 a3 a4 a5 a6 a7 a8 a9 a10 a11 a12 a13 a14 a15 = out a0 a1 a2 a3 a4 a5 a6 a7 a8 a9 a10 a11 a12 a13 a14 a15 := by
  have hm : ∀ r e, msk a2 r e = 0 ∨ msk a2 r e = 1 := by
    intro r e
    unfold msk
    split_ifs
    exacts [Or.inr rfl, Or.inl rfl]
  have e0 : x0K a0 a4 a5 a6 a7 = x0 a0 a4 a5 a6 a7 := Spec.embedHot_eq _ _ _ _ _ _
  have r0 : ∀ n k, Spec.IsReal (x0 a0 a4 a5 a6 a7 n k) := fun n k =>
    Spec.embed_real _ _ _ _ _ _ (fun _ _ => h4 _) (fun _ _ => h5 _) (fun _ _ => h6 _) (fun _ => h7 _) n k
  have g0 : ∀ e k, Spec.IsReal (gath a1 (x0 a0 a4 a5 a6 a7) e k) := fun e k => r0 _ k
  have e1 : x1K a0 a1 a2 a4 a5 a6 a7 a8 a9 a10 = x1 a0 a1 a2 a4 a5 a6 a7 a8 a9 a10 := by
    unfold x1K x1
    rw [e0]
    exact Spec.layerCat_eq _ _ _ _ _ _ _ r0 g0 hm (fun _ _ => h8 _) (fun _ _ _ => h9 _) (fun _ => h10 _)
  have r1 : ∀ n k, Spec.IsReal (x1 a0 a1 a2 a4 a5 a6 a7 a8 a9 a10 n k) := fun n k =>
    Spec.layer_real _ _ _ _ _ _ _ r0 g0 hm (fun _ _ => h8 _) (fun _ _ _ => h9 _) (fun _ => h10 _) n k
  have g1 : ∀ e k, Spec.IsReal (gath a1 (x1 a0 a1 a2 a4 a5 a6 a7 a8 a9 a10) e k) := fun e k => r1 _ k
  have e2 : x2K a0 a1 a2 a4 a5 a6 a7 a8 a9 a10 a11 a12 a13 = x2 a0 a1 a2 a4 a5 a6 a7 a8 a9 a10 a11 a12 a13 := by
    unfold x2K x2
    rw [e1]
    exact Spec.layerCat_eq _ _ _ _ _ _ _ r1 g1 hm (fun _ _ => h11 _) (fun _ _ _ => h12 _) (fun _ => h13 _)
  have e3 := Spec.pooledHot_eq (G := 512) (T := 10) (B := 10000) (by norm_num) (x2 a0 a1 a2 a4 a5 a6 a7 a8 a9 a10 a11 a12 a13) (graph a3)
    (fun j o => a14 (ix2 j o)) (fun o => a15 (ix1 o)) blockRow (fun _ _ => rfl)
  funext i
  unfold outK out
  rw [e2, e3]

theorem shapeRow_word (n : Fin 100000) (h : (a0 (ix2 n 0)).toNat < 16) : BitVec.ofNat 32 (shapeRow a0 n).val = a0 (ix2 n 0) := by
  unfold shapeRow
  rw [row_val_of_lt 16 (by decide) (by norm_num) _ h]
  exact BitVec.eq_of_toNat_eq (by rw [BitVec.toNat_ofNat]; exact Nat.mod_eq_of_lt (BitVec.isLt _))

theorem colorRow_word (n : Fin 100000) (h : (a0 (ix2 n 1)).toNat < 8) : BitVec.ofNat 32 (colorRow a0 n).val = a0 (ix2 n 1) := by
  unfold colorRow
  rw [row_val_of_lt 8 (by decide) (by norm_num) _ h]
  exact BitVec.eq_of_toNat_eq (by rw [BitVec.toNat_ofNat]; exact Nat.mod_eq_of_lt (BitVec.isLt _))

end

end Cert.Net

end
-- ==== Proof.KI.ValPool.lean ====
import Idealize.ShloMosaic.Lib.IdealHost
import proofs.«419321_j88648124990635_2_alg».proof.Proof.Spec
import proofs.«419321_j88648124990635_2_alg».proof.Proof.Net
import proofs.«419321_j88648124990635_2_alg».proof.Proof.KI.Pool
import proofs.«419321_j88648124990635_2_alg».proof.Proof.LibRank2

noncomputable section

open scoped BigOperators
open Idealize.ShloMosaic Idealize.ShloMosaic.ValueIdx Idealize.ShloMosaic.TcCoe Idealize.ShloMosaic.Rank2
open Cert.KernelIdeal Cert.KernelIdeal.Gen Cert.KernelIdeal.Hand

namespace Cert.KernelIdeal.Val

theorem hot_apply (ids : Vec Ideal S10000x1 .i32) (r : Fin 10000) (g : Fin 512) :
    (k3_pay3 (F := Ideal) ids (ix2 r g) : EReal) = if ids (ix2 r 0) = BitVec.ofNat 32 g.val then 1 else 0 := by
  unfold k3_pay3
  simp only [shapeCast_self]
  exact onehot_apply ids _ _ _ r g

theorem startS_apply (i : S512x64.Idx) : (k3_pay1 (F := Ideal) i : EReal) = 0 := by
  unfold k3_pay1
  rw [shapeCast_self, broadcast_apply]
  exact Ideal.ofBits_zero_f32
theorem startC_apply (i : S512x64.Idx) : (k3_pay2 (F := Ideal) i : EReal) = 0 := by
  unfold k3_pay2
  rw [shapeCast_self, broadcast_apply]
  exact Ideal.ofBits_zero_f32

-- one point adds, per graph, the block's rows whose graph word is the graph's
theorem stepS_apply (ids : Vec Ideal S10000x1 .i32) (x : Vec Ideal S10000x64 .f32) (s : Vec Ideal S512x64 .f32) (g : Fin 512) (j : Fin 64) :
    (k3_pay4 (F := Ideal) ids x s (ix2 g j) : EReal)
      = s (ix2 g j) + ∑ r : Fin 10000, (if ids (ix2 r 0) = BitVec.ofNat 32 g.val then (1 : EReal) else 0) * x (ix2 r j) := by
  unfold k3_pay4
  rw [shapeCast_self, addf_apply, matmulT_apply dot_S10000x512_S10000x64_S512x64_0_0_1_1_n_n _ rfl]
  refine congrArg (s (ix2 g j) + ·) (Finset.sum_congr rfl fun r _ => ?_)
  rw [hot_apply, truncf_apply, shapeCast_self]

theorem stepC_apply (ids : Vec Ideal S10000x1 .i32) (s : Vec Ideal S512x64 .f32) (g : Fin 512) (j : Fin 64) :
    (k3_pay5 (F := Ideal) ids s (ix2 g j) : EReal)
      = s (ix2 g j) + ∑ r : Fin 10000, (if ids (ix2 r 0) = BitVec.ofNat 32 g.val then (1 : EReal) else 0) * 1 := by
  unfold k3_pay5
  rw [shapeCast_self, addf_apply, matmulT_apply dot_S10000x512_S10000x64_S512x64_0_0_1_1_n_n _ rfl]
  refine congrArg (s (ix2 g j) + ·) (Finset.sum_congr rfl fun r _ => ?_)
  rw [hot_apply, broadcast_apply]
  exact congrArg (_ * ·) Ideal.ofBits_one_bf16

-- the last point divides the sums by the counts (at least one) and applies the classifier
theorem classify_apply (s c : Vec Ideal S512x64 .f32) (w : Vec Ideal S64x10 .f32) (b : Vec Ideal S1x10 .f32) (g : Fin 512) (o : Fin 10) :
    (k3_pay6 (F := Ideal) s c w b (ix2 g o) : EReal)
      = (∑ k : Fin 64, Ideal.div (s (ix2 g k)) (max (c (ix2 g k)) 1) * w (ix2 k o)) + b (ix2 0 o) := by
  unfold k3_pay6
  rw [addf_apply, shapeCast_self, broadcastRow_apply, matmul_apply dot_S512x64_S64x10_S512x10_1_0_0_1_n_n _ rfl]
  refine congrArg (· + b (ix2 0 o)) (Finset.sum_congr rfl fun k _ => ?_)
  rw [truncf_apply, truncf_apply, divf_apply, maximumf_apply, broadcast_apply]
  exact congrArg (fun u => Ideal.div _ (max _ u) * _) Ideal.ofBits_one_f32

variable (V : (c : Dev nD) → (b : Ref sig .tc) → Buf (Elt Ideal) ((c : Thread nD τ).loc b))

def pt (t : Fin cfg3.N) : Fin 10 := ⟨t.val, by have h : t.val < grid3.N := t.isLt; rw [N_3] at h; exact h⟩

theorem index_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

abbrev rowsOf (c : Dev nD) : Fin 10 → Fin 10000 → Fin 64 → EReal :=
  fun t r j => (V c main_v143 : S100000x64.Idx → EReal) (ix2 (Cert.Net.blockRow t r) j)
abbrev wordsOf (c : Dev nD) : Fin 10 → Fin 10000 → BitVec 32 :=
  fun t r => (V c main_v144 : S100000x1.Idx → BitVec 32) (ix2 (Cert.Net.blockRow t r) 0)

-- a block entry sits in its array at block index times block size plus its own coordinate
theorem rows_apply (c : Dev nD) (t : Fin cfg3.N) (r : Fin 10000) (j : Fin 64) :
    (iblk3 (F := Ideal) V c 0 t (ix2 r j) : EReal) = rowsOf V c (pt t) r j :=
  congr_idx2 (V c main_v143 : S100000x64.Idx → EReal) _ _ ((win3_0.rect_emb_val t _ 0).trans (by rw [(index_facts3 t).1]; rfl))
    (win3_0.rect_emb_val_of_index_zero t 1 (index_facts3 t).2.1 _)

theorem words_apply (c : Dev nD) (t : Fin cfg3.N) (r : Fin 10000) :
    (iblk3 (F := Ideal) V c 1 t (ix2 r 0) : BitVec 32) = wordsOf V c (pt t) r :=
  congr_idx2 (V c main_v144 : S100000x1.Idx → BitVec 32) _ _ ((win3_1.rect_emb_val t _ 0).trans (by rw [(index_facts3 t).2.2.1]; rfl))
    (win3_1.rect_emb_val_of_index_zero t 1 (index_facts3 t).2.2.2.1 _)

-- by induction on the point: each point adds its block's one-hot sum
theorem accS_apply (c : Dev nD) (g : Fin 512) (j : Fin 64) (n : ℕ) : ∀ (h : n < cfg3.N) (h' : n + 1 ≤ 10),
    (accS (F := Ideal) V c n h (ix2 g j) : EReal) = Cert.Spec.hotSum (G := 512) (rowsOf V c) (wordsOf V c) g j (n + 1) h' := by
  induction n with
  | zero =>
    intro h h'
    rw [Cert.Spec.hotSum, Cert.Spec.hotSum, accS_zero, stepS_apply, startS_apply]
    refine congrArg (0 + ·) (Finset.sum_congr rfl fun r _ => ?_)
    rw [words_apply, rows_apply]
    rfl
  | succ n ih =>
    intro h h'
    rw [Cert.Spec.hotSum, accS_succ, stepS_apply, ih (Nat.lt_of_succ_lt h) (Nat.le_of_succ_le h')]
    refine congrArg (HAdd.hAdd (_ : EReal)) (Finset.sum_congr rfl fun r _ => ?_)
    rw [words_apply, rows_apply]
    rfl

theorem accC_apply (c : Dev nD) (g : Fin 512) (j : Fin 64) (n : ℕ) : ∀ (h : n < cfg3.N) (h' : n + 1 ≤ 10),
    (accC (F := Ideal) V c n h (ix2 g j) : EReal) = Cert.Spec.hotSum (G := 512) (T := 10) (B := 10000) (fun _ _ _ => 1) (wordsOf V c) g j (n + 1) h' := by
  induction n with
  | zero =>
    intro h h'
    rw [Cert.Spec.hotSum, Cert.Spec.hotSum, accC_zero, stepC_apply, startC_apply]
    refine congrArg (0 + ·) (Finset.sum_congr rfl fun r _ => ?_)
    rw [words_apply]
    rfl
  | succ n ih =>
    intro h h'
    rw [Cert.Spec.hotSum, accC_succ, stepC_apply, ih (Nat.lt_of_succ_lt h) (Nat.le_of_succ_le h')]
    refine congrArg (HAdd.hAdd (_ : EReal)) (Finset.sum_congr rfl fun r _ => ?_)
    rw [words_apply]
    rfl

def pooledOf (c : Dev nD) : S512x10.Idx → EReal := fun i =>
  Cert.Spec.pooledHot (G := 512) (T := 10) (B := 10000) (rowsOf V c) (wordsOf V c)
    (fun j o => (V c main_arg14 : S64x10.Idx → EReal) (ix2 j o)) (fun o => (V c main_v145 : S1x10.Idx → EReal) (ix2 0 o)) (i 0) (i 1)

-- the result array is what the last point leaves: its one block is the whole array
theorem flushed_out (c : Dev nD) (t : Fin cfg3.N) (hf : (cfg3.win 4).flush t = true) :
    (dat3 (F := Ideal) V c).flushed 4 t = ((cfg3.win 4).blk t).view.read (Elt Ideal) (pooledOf V c) := by
  have ht : t.val = 9 := by have h := (flush3_4 t).mp hf; have hlt : t.val < 10 := (pt t).isLt; omega
  obtain ⟨-, -, -, -, w0, w1, b0, b1, o0, o1⟩ := index_facts3 t
  show (cfg3.win 4).cut (grid3.coords t) ((dat3 (F := Ideal) V c).after 4 t) = _
  rw [after3_4_last V c t ht]
  funext y
  obtain ⟨g, o, rfl⟩ : ∃ (g : Fin 512) (o : Fin 10), y = ix2 g o := ⟨y 0, y 1, eq_ix2 y⟩
  have hemb : pooledOf V c (((cfg3.win 4).blk t).view.emb (ix2 g o)) = pooledOf V c (ix2 g o) :=
    congr_idx2 (pooledOf V c) _ _ (win3_4.rect_emb_val_of_index_zero t 0 o0 _) (win3_4.rect_emb_val_of_index_zero t 1 o1 _)
  refine Eq.trans ?_ hemb.symm
  show (k3_pay6 (F := Ideal) (accS V c 9 nine_lt3) (accC V c 9 nine_lt3) (iblk3 V c 2 t) (iblk3 V c 3 t) (ix2 g o) : EReal) = pooledOf V c (ix2 g o)
  rw [classify_apply]
  unfold pooledOf Cert.Spec.pooledHot
  refine congr (congrArg _ (Finset.sum_congr rfl fun k _ => ?_))
    (congr_idx2 (V c main_v145 : S1x10.Idx → EReal) _ _ (win3_3.rect_emb_val_of_index_zero t 0 b0 _) (win3_3.rect_emb_val_of_index_zero t 1 b1 _))
  rw [accS_apply V c g k 9 nine_lt3 (by decide), accC_apply V c g k 9 nine_lt3 (by decide)]
  exact congrArg (_ * ·) (congr_idx2 (V c main_arg14 : S64x10.Idx → EReal) _ _ (win3_2.rect_emb_val_of_index_zero t 0 w0 _) (win3_2.rect_emb_val_of_index_zero t 1 w1 _))

theorem pool_array (c : Dev nD) :
    ((dat3 (F := Ideal) V c).arrAt 4 cfg3.N : S512x10.Idx → EReal) = fun i =>
      Cert.Spec.pooledHot (G := 512) (T := 10) (B := 10000)
        (fun t r j => (V c main_v143 : S100000x64.Idx → EReal) (ix2 (Cert.Net.blockRow t r) j))
        (fun t r => (V c main_v144 : S100000x1.Idx → BitVec 32) (ix2 (Cert.Net.blockRow t r) 0))
        (fun j o => (V c main_arg14 : S64x10.Idx → EReal) (ix2 j o)) (fun o => (V c main_v145 : S1x10.Idx → EReal) (ix2 0 o)) (i 0) (i 1) := by
  refine (dat3 (F := Ideal) V c).arrAt_eq_of_cover 4 (pooledOf V c) (fun t hf => flushed_out V c t hf) (fun i => ?_)
  refine ⟨⟨9, nine_lt3⟩, (flush3_4 _).mpr rfl, ?_⟩
  obtain ⟨-, -, -, -, -, -, -, -, o0, o1⟩ := index_facts3 ⟨9, nine_lt3⟩
  have h0 : (i 0).val < 512 := (i 0).isLt
  have h1 : (i 1).val < 10 := (i 1).isLt
  show i ∈ ((View.whole main_v146).slice (win3_4.rect ⟨9, nine_lt3⟩)).set
  rw [View.set_slice_whole, Rect.mem_set_unit]
  intro a
  match a with
  | ⟨0, _⟩ => show win3_4.index ⟨9, nine_lt3⟩ (0 : Fin 2) * 512 ≤ (i 0).val ∧ (i 0).val < win3_4.index ⟨9, nine_lt3⟩ (0 : Fin 2) * 512 + 512; rw [o0]; omega
  | ⟨1, _⟩ => show win3_4.index ⟨9, nine_lt3⟩ (1 : Fin 2) * 10 ≤ (i 1).val ∧ (i 1).val < win3_4.index ⟨9, nine_lt3⟩ (1 : Fin 2) * 10 + 10; rw [o1]; omega

end Cert.KernelIdeal.Val

end
-- ==== Proof.LibIndexedRows.lean ====
import Idealize.ShloMosaic.Lib.ValueIdx
import Idealize.ShloMosaic.PureOps.Contract

noncomputable section

open scoped BigOperators

namespace Idealize.ShloMosaic.IndexedRows

open Idealize.ShloMosaic Idealize.ShloMosaic.ValueIdx

theorem getElem_of_eq_singleton {α : Type} {l : List α} {x : α} (hl : l = [x]) (i : Nat) (h : i < l.length) : l[i] = x := by
  subst hl
  have hi : i = 0 := by simpa using h
  subst hi; rfl

theorem kept_zero (f : Fin 2 → Nat) : Shape.kept ⟨2, f⟩ [0] = [1] := by
  show (List.finRange 2).filter (· ∉ ([0] : List (Fin 2))) = [1]
  decide

theorem kept_one (f : Fin 2 → Nat) : Shape.kept ⟨2, f⟩ [1] = [0] := by
  show (List.finRange 2).filter (· ∉ ([1] : List (Fin 2))) = [0]
  decide

theorem val_at_zero {n0 n1 : Nat} (j : (⟨2, ![n0, n1]⟩ : Shape).Idx) (X : Fin 2) (hX : X = 0) : (j X).val = (j 0).val := by
  subst hX; rfl

theorem val_at_one {n0 n1 : Nat} (j : (⟨2, ![n0, n1]⟩ : Shape).Idx) (X : Fin 2) (hX : X = 1) : (j X).val = (j 1).val := by
  subst hX; rfl

theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 := congrArg Fin.val (congrFun hf a)
      have h2 := (h a).1
      simp only at h1
      omega
    · intro hf
      funext a
      apply Fin.ext
      have h1 := hf a
      have h2 := (h a).1
      show (d.start j idx a + (d.window j a : ℤ)).toNat = (i a).val
      omega
  · rename_i h
    constructor
    · intro hf; exact absurd hf (by simp)
    · intro hf
      exfalso; apply h; intro a
      have h1 := hf a
      have h2 := (i a).isLt
      omega

theorem kept_only (f : Fin 1 → Nat) : Shape.kept ⟨1, f⟩ [0] = [] := by
  show (List.finRange 1).filter (· ∉ ([0] : List (Fin 1))) = []
  decide

theorem val_at_only {n0 : Nat} (j : (⟨1, ![n0]⟩ : Shape).Idx) (X : Fin 1) : (j X).val = (j 0).val := by
  obtain rfl : X = 0 := Subsingleton.elim _ _
  rfl

abbrev RowGather {R E D : ℕ} (dg : GatherDims ⟨2, ![R, D]⟩ ⟨2, ![E, 1]⟩ ⟨2, ![E, D]⟩) : Prop :=
  dg.offsetDims = [1] ∧ dg.collapsedSliceDims = [0] ∧ dg.operandBatchingDims = [] ∧ dg.startIndexMap = [0] ∧ dg.indexVectorDim = 1

abbrev RowScatter {N E D : ℕ} (ds : ScatterDims ⟨2, ![N, D]⟩ ⟨2, ![E, 1]⟩ ⟨2, ![E, D]⟩) : Prop :=
  ds.updateWindowDims = [1] ∧ ds.insertedWindowDims = [0] ∧ ds.scatterDimsToOperandDims = [0] ∧ ds.indexVectorDim = 1

abbrev VecScatter {N E : ℕ} (dv : ScatterDims ⟨1, ![N]⟩ ⟨2, ![E, 1]⟩ ⟨1, ![E]⟩) : Prop :=
  dv.insertedWindowDims = [0] ∧ dv.scatterDimsToOperandDims = [0] ∧ dv.indexVectorDim = 1

section ScatterRows
variable {N D E w : Nat} (d : ScatterDims ⟨2, ![N, D]⟩ ⟨2, ![E, 1]⟩ ⟨2, ![E, D]⟩) (h : RowScatter d)
include h

theorem siIdx_rows (j : (⟨2, ![E, D]⟩ : Shape).Idx) (c : Fin d.scatterDimsToOperandDims.length) (hc : c.val = 0) :
    d.siIdx j c = ix2 (j 0) 0 := by
  funext b
  match b with
  | ⟨0, _⟩ =>
    unfold ScatterDims.siIdx
    rw [dif_neg (by rw [h.2.2.2]; simp)]
    unfold ScatterDims.siCoord
    apply Fin.ext
    simp only [Fin.val_cast]
    have hus : d.uScatter = [0] := by
      show Shape.kept _ d.updateWindowDims = [0]
      rw [h.1]; exact kept_one _
    exact val_at_zero j _ (getElem_of_eq_singleton hus _ _)
  | ⟨1, _⟩ =>
    unfold ScatterDims.siIdx
    rw [dif_pos (by rw [h.2.2.2])]
    apply Fin.ext
    exact hc

theorem start_row (j : (⟨2, ![E, D]⟩ : Shape).Idx) (idx : IVec ⟨2, ![E, 1]⟩ w) :
    d.start j idx 0 = (idx (ix2 (j 0) 0)).toInt := by
  have hm : (0 : Fin 2) ∈ d.scatterDimsToOperandDims := by rw [h.2.2.1]; exact List.mem_singleton.mpr rfl
  unfold ScatterDims.start
  rw [dif_pos hm, siIdx_rows d h j _ (by
    show List.idxOf (0 : Fin 2) d.scatterDimsToOperandDims = 0
    rw [h.2.2.1]; simp)]
  rfl

theorem start_col (j : (⟨2, ![E, D]⟩ : Shape).Idx) (idx : IVec ⟨2, ![E, 1]⟩ w) :
    d.start j idx 1 = 0 := by
  have hm : (1 : Fin 2) ∉ d.scatterDimsToOperandDims := by
    rw [h.2.2.1]; show (1 : Fin 2) ∉ ([0] : List (Fin 2)); decide
  unfold ScatterDims.start
  rw [dif_neg hm]

theorem window_row (j : (⟨2, ![E, D]⟩ : Shape).Idx) : d.window j 0 = 0 := by
  have hm : (0 : Fin 2) ∉ d.sKept := by
    show (0 : Fin 2) ∉ Shape.kept _ d.insertedWindowDims
    rw [h.2.1, kept_zero]; show (0 : Fin 2) ∉ ([1] : List (Fin 2)); decide
  unfold ScatterDims.window
  rw [dif_neg hm]

theorem window_col (j : (⟨2, ![E, D]⟩ : Shape).Idx) :
    d.window j 1 = (j 1).val := by
  have hm : (1 : Fin 2) ∈ d.sKept := by
    show (1 : Fin 2) ∈ Shape.kept _ d.insertedWindowDims
    rw [h.2.1, kept_zero]; exact List.mem_singleton.mpr rfl
  unfold ScatterDims.window
  rw [dif_pos hm]
  exact val_at_one j _ (getElem_of_eq_singleton h.1 _ _)

theorem resultIdx?_rows (idx : IVec ⟨2, ![E, 1]⟩ w)
    (e : Fin E) (k' : Fin D) (n : Fin N) (k : Fin D) :
    d.resultIdx? (ix2 e k') idx = some (ix2 n k) ↔ (idx (ix2 e 0)).toInt = (n.val : ℤ) ∧ k' = k := by
  rw [resultIdx?_eq_some_iff, Fin.forall_fin_two, start_row d h, start_col d h, window_row d h,
    window_col d h]
  show (idx (ix2 e 0)).toInt + ((0 : ℕ) : ℤ) = (n.val : ℤ) ∧ (0 : ℤ) + ((k'.val : ℕ) : ℤ) = (k.val : ℤ) ↔ _
  rw [Fin.ext_iff]
  omega

theorem host_scatterAdd_rows {φ : FTy} (x : FVec Ideal ⟨2, ![N, D]⟩ φ) (idx : IVec ⟨2, ![E, 1]⟩ w) (upd : FVec Ideal ⟨2, ![E, D]⟩ φ) (n : Fin N) (k : Fin D) :
    Host.scatterAdd (F := Ideal) d x idx upd (ix2 n k)
      = x (ix2 n k) + ∑ e ∈ Finset.univ.filter (fun e : Fin E => (idx (ix2 e 0)).toInt = (n.val : ℤ)), upd (ix2 e k) := by
  show Ideal.hostScatterAdd d x idx upd (ix2 n k) = _
  unfold Ideal.hostScatterAdd
  congr 1
  have hP : ∀ j : (⟨2, ![E, D]⟩ : Shape).Idx,
      d.resultIdx? j idx = some (ix2 n k) ↔ (idx (ix2 (j 0) 0)).toInt = (n.val : ℤ) ∧ j 1 = k := fun j => by
    conv_lhs => rw [eq_ix2 j]
    exact resultIdx?_rows d h idx (j 0) (j 1) n k
  refine Finset.sum_bij' (fun j _ => j 0) (fun e _ => ix2 e k) ?_ ?_ ?_ ?_ ?_
  · intro j hj
    exact Finset.mem_filter.2 ⟨Finset.mem_univ _, ((hP j).1 (Finset.mem_filter.1 hj).2).1⟩
  · intro e he
    exact Finset.mem_filter.2 ⟨Finset.mem_univ _, (hP _).2 ⟨(Finset.mem_filter.1 he).2, rfl⟩⟩
  · intro j hj
    have hk := ((hP j).1 (Finset.mem_filter.1 hj).2).2
    rw [← hk]; exact (eq_ix2 j).symm
  · intro e _; rfl
  · intro j hj
    have hk := ((hP j).1 (Finset.mem_filter.1 hj).2).2
    rw [← hk]; exact congrArg upd (eq_ix2 j)

end ScatterRows

section ScatterVec
variable {N E w : Nat} (d : ScatterDims ⟨1, ![N]⟩ ⟨2, ![E, 1]⟩ ⟨1, ![E]⟩) (h : VecScatter d)
include h

theorem siIdx_vec (j : (⟨1, ![E]⟩ : Shape).Idx)
    (c : Fin d.scatterDimsToOperandDims.length) (hc : c.val = 0) : d.siIdx j c = ix2 (j 0) 0 := by
  funext b
  match b with
  | ⟨0, _⟩ =>
    unfold ScatterDims.siIdx
    rw [dif_neg (by rw [h.2.2]; simp)]
    unfold ScatterDims.siCoord
    apply Fin.ext
    simp only [Fin.val_cast]
    exact val_at_only j _
  | ⟨1, _⟩ =>
    unfold ScatterDims.siIdx
    rw [dif_pos (by rw [h.2.2])]
    apply Fin.ext
    exact hc

theorem start_vec (j : (⟨1, ![E]⟩ : Shape).Idx) (idx : IVec ⟨2, ![E, 1]⟩ w) :
    d.start j idx 0 = (idx (ix2 (j 0) 0)).toInt := by
  have hm : (0 : Fin 1) ∈ d.scatterDimsToOperandDims := by rw [h.2.1]; exact List.mem_singleton.mpr rfl
  unfold ScatterDims.start
  rw [dif_pos hm, siIdx_vec d h j _ (by
    show List.idxOf (0 : Fin 1) d.scatterDimsToOperandDims = 0
    rw [h.2.1]; simp)]
  rfl

theorem window_vec (j : (⟨1, ![E]⟩ : Shape).Idx) : d.window j 0 = 0 := by
  have hm : (0 : Fin 1) ∉ d.sKept := by
    show (0 : Fin 1) ∉ Shape.kept _ d.insertedWindowDims
    rw [h.1, kept_only]; exact List.not_mem_nil
  unfold ScatterDims.window
  rw [dif_neg hm]

theorem resultIdx?_vec (idx : IVec ⟨2, ![E, 1]⟩ w) (e : Fin E) (n : Fin N) :
    d.resultIdx? (ix1 e) idx = some (ix1 n) ↔ (idx (ix2 e 0)).toInt = (n.val : ℤ) := by
  rw [resultIdx?_eq_some_iff, Fin.forall_fin_one, start_vec d h, window_vec d h]
  show (idx (ix2 e 0)).toInt + ((0 : ℕ) : ℤ) = (n.val : ℤ) ↔ _
  omega

theorem host_scatterAdd_vec {φ : FTy} (x : FVec Ideal ⟨1, ![N]⟩ φ) (idx : IVec ⟨2, ![E, 1]⟩ w) (upd : FVec Ideal ⟨1, ![E]⟩ φ) (n : Fin N) :
    Host.scatterAdd (F := Ideal) d x idx upd (ix1 n)
      = x (ix1 n) + ∑ e ∈ Finset.univ.filter (fun e : Fin E => (idx (ix2 e 0)).toInt = (n.val : ℤ)), upd (ix1 e) := by
  show Ideal.hostScatterAdd d x idx upd (ix1 n) = _
  unfold Ideal.hostScatterAdd
  congr 1
  have hP : ∀ j : (⟨1, ![E]⟩ : Shape).Idx,
      d.resultIdx? j idx = some (ix1 n) ↔ (idx (ix2 (j 0) 0)).toInt = (n.val : ℤ) := fun j => by
    conv_lhs => rw [eq_ix1 j]
    exact resultIdx?_vec d h idx (j 0) n
  refine Finset.sum_bij' (fun j _ => j 0) (fun e _ => ix1 e) ?_ ?_ ?_ ?_ ?_
  · intro j hj
    exact Finset.mem_filter.2 ⟨Finset.mem_univ _, (hP j).1 (Finset.mem_filter.1 hj).2⟩
  · intro e he
    exact Finset.mem_filter.2 ⟨Finset.mem_univ _, (hP _).2 (Finset.mem_filter.1 he).2⟩
  · intro j _; exact (eq_ix1 j).symm
  · intro e _; rfl
  · intro j _; exact congrArg upd (eq_ix1 j)

end ScatterVec

section GatherRows
variable {α : Type} {N D E w : Nat} (d : GatherDims ⟨2, ![N, D]⟩ ⟨2, ![E, 1]⟩ ⟨2, ![E, D]⟩) (h : RowGather d)
include h

theorem gather_siIdx_rows (j : (⟨2, ![E, D]⟩ : Shape).Idx) (c : Fin d.startIndexMap.length) (hc : c.val = 0) :
    d.siIdx j c = ix2 (j 0) 0 := by
  funext b
  match b with
  | ⟨0, _⟩ =>
    unfold GatherDims.siIdx
    rw [dif_neg (by rw [h.2.2.2.2]; simp)]
    unfold GatherDims.siCoord
    apply Fin.ext
    simp only [Fin.val_cast]
    have hbd : d.batchDims = [0] := by
      show Shape.kept _ d.offsetDims = [0]
      rw [h.1]; exact kept_one _
    exact val_at_zero j _ (getElem_of_eq_singleton hbd _ _)
  | ⟨1, _⟩ =>
    unfold GatherDims.siIdx
    rw [dif_pos (by rw [h.2.2.2.2])]
    apply Fin.ext
    exact hc

theorem gather_rows (x : (⟨2, ![N, D]⟩ : Shape).Idx → α) (idx : IVec ⟨2, ![E, 1]⟩ w) (e : Fin E) (k : Fin D) (hN : 0 < N) :
    Host.gather d x idx (ix2 e k) = x (ix2 ⟨min (idx (ix2 e 0)).toInt.toNat (N - 1), by omega⟩ k) := by
  unfold Host.gather
  congr 1
  funext a
  have hb : ∀ a : Fin 2, a ∉ d.operandBatchingDims := fun a => by rw [h.2.2.1]; exact List.not_mem_nil
  match a with
  | ⟨0, _⟩ =>
    apply Fin.ext
    have hk : (0 : Fin 2) ∉ d.sKept := by rw [GatherDims.mem_sKept, h.2.1]; simp
    have hm : (0 : Fin 2) ∈ d.startIndexMap := by rw [h.2.2.2.1]; exact List.mem_singleton.mpr rfl
    have hsl : d.sliceSizes 0 = 1 := d.slice_collapsed 0 (by rw [h.2.1]; exact List.mem_singleton.mpr rfl)
    show d.start (ix2 e k) idx 0 + d.batchCoord (ix2 e k) 0 + d.offCoord (ix2 e k) 0 = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, gather_siIdx_rows d h _ _ (by
      show List.idxOf (0 : Fin 2) d.startIndexMap = 0
      rw [h.2.2.2.1]; simp)]
    show min (idx (ix2 e 0)).toInt.toNat (N - d.sliceSizes 0) = min (idx (ix2 e 0)).toInt.toNat (N - 1)
    rw [hsl]
  | ⟨1, _⟩ =>
    apply Fin.ext
    have hk : (1 : Fin 2) ∈ d.sKept := by
      rw [GatherDims.mem_sKept, h.2.1, h.2.2.1]
      exact ⟨by show (1 : Fin 2) ∉ ([0] : List (Fin 2)); decide, List.not_mem_nil⟩
    have hm : (1 : Fin 2) ∉ d.startIndexMap := by
      rw [h.2.2.2.1]; show (1 : Fin 2) ∉ ([0] : List (Fin 2)); decide
    show d.start (ix2 e k) idx 1 + d.batchCoord (ix2 e k) 1 + d.offCoord (ix2 e k) 1 = k.val
    rw [GatherDims.batchCoord_eq_zero _ _ _ (hb 1)]
    unfold GatherDims.start GatherDims.offCoord
    rw [dif_neg hm, dif_pos hk]
    simp only [Nat.zero_add]
    exact val_at_one (ix2 e k) _ (getElem_of_eq_singleton h.1 _ _)

end GatherRows

end Idealize.ShloMosaic.IndexedRows

end
-- ==== Proof.KI.HostTerms.lean ====
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.PureOps.Contract
import proofs.«419321_j88648124990635_2_alg».proof.Proof.Spec
import proofs.«419321_j88648124990635_2_alg».proof.Proof.Net
import proofs.«419321_j88648124990635_2_alg».proof.Proof.LibIndexedRows

noncomputable section

open scoped BigOperators

namespace Cert.HostTerms

open Idealize.ShloMosaic Idealize.ShloMosaic.ValueIdx Idealize.ShloMosaic.IndexedRows

theorem bcast_col_apply {α : Type} {n : ℕ} (h : (⟨1, ![n]⟩ : Shape).BroadcastsInDim ⟨2, ![n, 1]⟩ ![0])
    (v : (⟨1, ![n]⟩ : Shape).Idx → α) (p : Fin n) (z : Fin 1) :
    broadcastInDim ⟨2, ![n, 1]⟩ ![0] h v (ix2 p z) = v (ix1 p) := by
  refine broadcastInDim_apply _ h v _ (ix1 p) fun a => ?_
  obtain rfl : a = 0 := Subsingleton.elim _ _
  show p.val = if n = 1 then 0 else p.val
  have := p.isLt
  split <;> omega

theorem bcast_rows_apply {α : Type} {n m : ℕ} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p 0) := by
  refine broadcastInDim_apply _ h v _ (ix2 p 0) fun a => ?_
  match a with
  | ⟨0, _⟩ =>
    show p.val = if n = 1 then 0 else p.val
    have := p.isLt
    split <;> omega
  | ⟨1, _⟩ => rfl

theorem select_slt {α : Type} (x y : BitVec 32) (a b : α) :
    Scalar.select (IntOp.cmpi .slt x y) a b = if x.slt y then a else b := by
  unfold Scalar.select IntOp.cmpi
  cases x.slt y <;> simp

theorem uitofp_eq (x y : BitVec 32) :
    (FloatOps.uitofp (F := Ideal) .f32 (IntOp.cmpi .eq x y) : EReal) = if x = y then 1 else 0 := by
  show (((IntOp.cmpi .eq x y).toNat : ℝ) : EReal) = _
  unfold IntOp.cmpi
  by_cases h : x = y <;> simp [h]

section Lookup
variable {R E D : ℕ} (dg : GatherDims ⟨2, ![R, D]⟩ ⟨2, ![E, 1]⟩ ⟨2, ![E, D]⟩)
  (hbE : (⟨0, ![]⟩ : Shape).BroadcastsInDim ⟨1, ![E]⟩ ![])
  (hbcol : (⟨1, ![E]⟩ : Shape).BroadcastsInDim ⟨2, ![E, 1]⟩ ![0])
  (T : (⟨2, ![R, D]⟩ : Shape).Idx → EReal) (A : IVec ⟨1, ![E]⟩ 32)

abbrev wrapped : IVec ⟨1, ![E]⟩ 32 :=
  select (cmpi .slt A (broadcastInDim ⟨1, ![E]⟩ ![] hbE (constantI ⟨0, ![]⟩ 32 0#32)))
    (addi A (broadcastInDim ⟨1, ![E]⟩ ![] hbE (constantI ⟨0, ![]⟩ 32 (BitVec.ofNat 32 R)))) A

theorem wrapped_apply (e : Fin E) :
    wrapped (R := R) hbE A (ix1 e) = if (A (ix1 e)).slt 0#32 then A (ix1 e) + BitVec.ofNat 32 R else A (ix1 e) := by
  show Scalar.select (IntOp.cmpi .slt (A (ix1 e)) (broadcastInDim ⟨1, ![E]⟩ ![] hbE (constantI ⟨0, ![]⟩ 32 0#32) (ix1 e)))
      (IntOp.addi (A (ix1 e)) (broadcastInDim ⟨1, ![E]⟩ ![] hbE (constantI ⟨0, ![]⟩ 32 (BitVec.ofNat 32 R)) (ix1 e))) (A (ix1 e)) = _
  rw [broadcastInDim_scalar_apply, broadcastInDim_scalar_apply, select_slt]
  rfl

abbrev looked : (⟨2, ![E, D]⟩ : Shape).Idx → EReal :=
  Host.gather dg T (broadcastInDim ⟨2, ![E, 1]⟩ ![0] hbcol (wrapped (R := R) hbE A))

-- a row lookup by wrapped numbers reads the row each number names, a negative one counted from the end
theorem looked_apply (hg : RowGather dg) (hR : 0 < R) (e : Fin E) (k : Fin D) :
    looked dg hbE hbcol T A (ix2 e k) = T (ix2 (Cert.Net.row R hR (A (ix1 e))) k) := by
  show Host.gather dg T _ (ix2 e k) = _
  rw [gather_rows dg hg T _ e k hR]
  refine congrArg (fun r => T (ix2 r k)) (Fin.ext ?_)
  show min (broadcastInDim ⟨2, ![E, 1]⟩ ![0] hbcol (wrapped (R := R) hbE A) (ix2 e 0)).toInt.toNat (R - 1) = _
  rw [bcast_col_apply, wrapped_apply]
  rfl

end Lookup

section Mean

variable {D : ℕ}
  (dg : GatherDims ⟨2, ![100000, D]⟩ ⟨2, ![1600000, 1]⟩ ⟨2, ![1600000, D]⟩)
  (ds : ScatterDims ⟨2, ![100000, D]⟩ ⟨2, ![1600000, 1]⟩ ⟨2, ![1600000, D]⟩)
  (dv : ScatterDims ⟨1, ![100000]⟩ ⟨2, ![1600000, 1]⟩ ⟨1, ![1600000]⟩)
  (hsl0 : (⟨2, ![2, 1600000]⟩ : Shape).Slices ![0, 0] ⟨2, ![1, 1600000]⟩)
  (hsl1 : (⟨2, ![2, 1600000]⟩ : Shape).Slices ![1, 0] ⟨2, ![1, 1600000]⟩)
  (hsc : (⟨2, ![1, 1600000]⟩ : Shape).ShapeCasts ⟨1, ![1600000]⟩)
  (hbE : (⟨0, ![]⟩ : Shape).BroadcastsInDim ⟨1, ![1600000]⟩ ![])
  (hbcol : (⟨1, ![1600000]⟩ : Shape).BroadcastsInDim ⟨2, ![1600000, 1]⟩ ![0])
  (hbrows : (⟨2, ![1600000, 1]⟩ : Shape).BroadcastsInDim ⟨2, ![1600000, D]⟩ ![0, 1])
  (hbND : (⟨0, ![]⟩ : Shape).BroadcastsInDim ⟨2, ![100000, D]⟩ ![])
  (hbN : (⟨0, ![]⟩ : Shape).BroadcastsInDim ⟨1, ![100000]⟩ ![])
  (hbNcol : (⟨1, ![100000]⟩ : Shape).BroadcastsInDim ⟨2, ![100000, 1]⟩ ![0])
  (hbNrows : (⟨2, ![100000, 1]⟩ : Shape).BroadcastsInDim ⟨2, ![100000, D]⟩ ![0, 1])
  (x1 : (⟨2, ![100000, D]⟩ : Shape).Idx → EReal) (a1 : (⟨2, ![2, 1600000]⟩ : Shape).Idx → BitVec 32)
  (a2 : IVec ⟨1, ![1600000]⟩ 32) (c : BitVec 32) (P : (⟨2, ![1600000, D]⟩ : Shape).Idx → EReal)

abbrev edgeRow (off : Fin 2 → ℕ) (hsl : (⟨2, ![2, 1600000]⟩ : Shape).Slices off ⟨2, ![1, 1600000]⟩) :
    IVec ⟨1, ![1600000]⟩ 32 :=
  shapeCast ⟨1, ![1600000]⟩ (extractStridedSlice ⟨2, ![1, 1600000]⟩ off a1 hsl) hsc

theorem edgeRow_apply (r : Fin 2) (off : Fin 2 → ℕ) (h0 : off 0 = r.val) (h1 : off 1 = 0)
    (hsl : (⟨2, ![2, 1600000]⟩ : Shape).Slices off ⟨2, ![1, 1600000]⟩) (e : Fin 1600000) :
    edgeRow hsc a1 off hsl (ix1 e) = a1 (ix2 r e) := by
  refine (shapeCast_1a_a_apply _ hsc e).trans (extractStridedSlice_apply off a1 hsl _ (ix2 r e) fun b => ?_)
  match b with
  | ⟨0, _⟩ => show r.val = off 0 + 0; omega
  | ⟨1, _⟩ => show e.val = off 1 + e.val; omega

abbrev maskOf : FVec Ideal ⟨1, ![1600000]⟩ .f32 :=
  uitofp (F := Ideal) .f32 (cmpi .eq a2 (broadcastInDim ⟨1, ![1600000]⟩ ![] hbE (constantI ⟨0, ![]⟩ 32 c)))

theorem maskOf_apply (e : Fin 1600000) : maskOf hbE a2 c (ix1 e) = if a2 (ix1 e) = c then 1 else 0 := by
  show FloatOps.uitofp (F := Ideal) .f32
      (IntOp.cmpi .eq (a2 (ix1 e)) (broadcastInDim ⟨1, ![1600000]⟩ ![] hbE (constantI ⟨0, ![]⟩ 32 c) (ix1 e))) = _
  rw [broadcastInDim_scalar_apply, uitofp_eq]
  rfl

abbrev gathered : (⟨2, ![1600000, D]⟩ : Shape).Idx → EReal :=
  looked dg hbE hbcol x1 (edgeRow hsc a1 ![0, 0] hsl0)

theorem gathered_apply (hg : RowGather dg) (e : Fin 1600000) (k : Fin D) :
    gathered dg hsl0 hsc hbE hbcol x1 a1 (ix2 e k) = Cert.Net.gath a1 (fun n k => x1 (ix2 n k)) e k := by
  refine (looked_apply dg hbE hbcol x1 _ hg (by decide) e k).trans ?_
  rw [edgeRow_apply hsc a1 0 ![0, 0] rfl rfl]
  rfl

abbrev summed : (⟨2, ![100000, D]⟩ : Shape).Idx → EReal :=
  Host.scatterAdd (F := Ideal) (φ := .f32) ds
    (broadcastInDim ⟨2, ![100000, D]⟩ ![] hbND (constant (F := Ideal) ⟨0, ![]⟩ .f32 0x00000000#32))
    (broadcastInDim ⟨2, ![1600000, 1]⟩ ![0] hbcol (edgeRow hsc a1 ![1, 0] hsl1))
    (mulf P (broadcastInDim ⟨2, ![1600000, D]⟩ ![0, 1] hbrows (broadcastInDim ⟨2, ![1600000, 1]⟩ ![0] hbcol (maskOf hbE a2 c))))

-- the accumulating scatter of masked per-edge rows is, at a node, the sum over the edges into it
theorem summed_apply (hs : RowScatter ds) (n : Fin 100000) (k : Fin D) :
    summed ds hsl1 hsc hbE hbcol hbrows hbND a1 a2 c P (ix2 n k)
      = ∑ e ∈ Cert.Spec.into (Cert.Net.dst a1) n, P (ix2 e k) * (if a2 (ix1 e) = c then 1 else 0) := by
  show Host.scatterAdd (F := Ideal) (φ := .f32) ds _ _ _ (ix2 n k) = _
  rw [host_scatterAdd_rows ds hs, broadcastInDim_scalar_apply]
  show Ideal.ofBits .f32 0x00000000#32 + _ = _
  rw [Ideal.ofBits_zero_f32, zero_add]
  unfold Cert.Spec.into
  refine Finset.sum_congr (Finset.filter_congr fun e _ => ?_) fun e _ => ?_
  · rw [bcast_col_apply, edgeRow_apply hsc a1 1 ![1, 0] rfl rfl]
    rfl
  · show P (ix2 e k) * _ = _
    rw [bcast_rows_apply, bcast_col_apply, maskOf_apply]

abbrev counted : (⟨1, ![100000]⟩ : Shape).Idx → EReal :=
  maximumf (F := Ideal) (φ := .f32)
    (Host.scatterAdd (F := Ideal) (φ := .f32) dv
      (broadcastInDim ⟨1, ![100000]⟩ ![] hbN (constant (F := Ideal) ⟨0, ![]⟩ .f32 0x00000000#32))
      (broadcastInDim ⟨2, ![1600000, 1]⟩ ![0] hbcol (edgeRow hsc a1 ![1, 0] hsl1)) (maskOf hbE a2 c))
    (broadcastInDim ⟨1, ![100000]⟩ ![] hbN (constant (F := Ideal) ⟨0, ![]⟩ .f32 0x3F800000#32))

theorem counted_apply (hv : VecScatter dv) (n : Fin 100000) :
    counted dv hsl1 hsc hbE hbcol hbN a1 a2 c (ix1 n)
      = Cert.Spec.count (fun e => if a2 (ix1 e) = c then 1 else 0) (Cert.Net.dst a1) n := by
  show maximumf (F := Ideal) (φ := .f32) _ _ (ix1 n) = _
  rw [maximumf_apply, host_scatterAdd_vec dv hv, broadcastInDim_scalar_apply, broadcastInDim_scalar_apply,
    constant_apply, constant_apply, Ideal.ofBits_zero_f32, zero_add, Ideal.ofBits_one_f32]
  unfold Cert.Spec.count Cert.Spec.into
  refine congrArg (fun s => max s 1) (Finset.sum_congr (Finset.filter_congr fun e _ => ?_) fun e _ => ?_)
  · rw [bcast_col_apply, edgeRow_apply hsc a1 1 ![1, 0] rfl rfl]
    rfl
  · exact maskOf_apply hbE a2 c e

abbrev ratio : (⟨2, ![100000, D]⟩ : Shape).Idx → EReal :=
  Host.divf (F := Ideal) (φ := .f32) (summed ds hsl1 hsc hbE hbcol hbrows hbND a1 a2 c P)
    (broadcastInDim ⟨2, ![100000, D]⟩ ![0, 1] hbNrows
      (broadcastInDim ⟨2, ![100000, 1]⟩ ![0] hbNcol (counted dv hsl1 hsc hbE hbcol hbN a1 a2 c)))

-- the quotient of the two segment sums, read at one node and column
theorem ratio_apply (hs : RowScatter ds) (hv : VecScatter dv) (n : Fin 100000) (k : Fin D) :
    ratio ds dv hsl1 hsc hbE hbcol hbrows hbND hbN hbNcol hbNrows a1 a2 c P (ix2 n k)
      = Ideal.div (∑ e ∈ Cert.Spec.into (Cert.Net.dst a1) n, P (ix2 e k) * (if a2 (ix1 e) = c then 1 else 0))
          (Cert.Spec.count (fun e => if a2 (ix1 e) = c then 1 else 0) (Cert.Net.dst a1) n) := by
  show Host.divf (F := Ideal) (φ := .f32) _ _ (ix2 n k) = _
  rw [hostDivf_apply, summed_apply ds hsl1 hsc hbE hbcol hbrows hbND a1 a2 c P hs, bcast_rows_apply,
    bcast_col_apply, counted_apply dv hsl1 hsc hbE hbcol hbN a1 a2 c hv]

-- with the gathered source rows as the per-edge rows, the quotient is the mean of a relation's neighbours
theorem meanTerm_eq (hg : RowGather dg) (hs : RowScatter ds) (hv : VecScatter dv) :
    ratio ds dv hsl1 hsc hbE hbcol hbrows hbND hbN hbNcol hbNrows a1 a2 c (gathered dg hsl0 hsc hbE hbcol x1 a1)
      = fun i => Cert.Spec.mean (Cert.Net.gath a1 (fun n k => x1 (ix2 n k))) (fun e => if a2 (ix1 e) = c then 1 else 0)
          (Cert.Net.dst a1) (i 0) (i 1) := by
  funext i
  obtain ⟨n, k, rfl⟩ : ∃ (n : Fin 100000) (k : Fin D), i = ix2 n k := ⟨i 0, i 1, eq_ix2 i⟩
  rw [ratio_apply ds dv hsl1 hsc hbE hbcol hbrows hbND hbN hbNcol hbNrows a1 a2 c _ hs hv]
  unfold Cert.Spec.mean
  simp only [gathered_apply dg hsl0 hsc hbE hbcol x1 a1 hg]
  rfl

end Mean

theorem row_of_vec_apply {α : Type} {n : ℕ} (v : (⟨1, ![n]⟩ : Shape).Idx → α)
    (h : (⟨1, ![n]⟩ : Shape).ShapeCasts ⟨2, ![1, n]⟩) (i : (⟨2, ![1, n]⟩ : Shape).Idx) :
    shapeCast ⟨2, ![1, n]⟩ v h i = v (ix1 (i 1)) := by
  rw [eq_ix2 i]
  exact shapeCast_a_1a_apply v h _ _

theorem slice_mat_apply {α : Type} {D M : ℕ} (r : Fin 3) (w : (⟨3, ![3, D, M]⟩ : Shape).Idx → α) (off : Fin 3 → ℕ)
    (h0 : off 0 = r.val) (h1 : off 1 = 0) (h2 : off 2 = 0)
    (hsl : (⟨3, ![3, D, M]⟩ : Shape).Slices off ⟨3, ![1, D, M]⟩) (hsc : (⟨3, ![1, D, M]⟩ : Shape).ShapeCasts ⟨2, ![D, M]⟩)
    (k : Fin D) (j : Fin M) :
    shapeCast ⟨2, ![D, M]⟩ (extractStridedSlice ⟨3, ![1, D, M]⟩ off w hsl) hsc (ix2 k j) = w (ix3 r k j) := by
  refine (shapeCast_1ab_ab_apply _ hsc k j).trans (extractStridedSlice_apply off w hsl _ (ix3 r k j) fun b => ?_)
  match b with
  | ⟨0, _⟩ => show r.val = off 0 + 0; omega
  | ⟨1, _⟩ => show k.val = off 1 + k.val; omega
  | ⟨2, _⟩ => show j.val = off 2 + j.val; omega

section Stack
variable {D : ℕ} (hs0 : (⟨3, ![3, D, 64]⟩ : Shape).Slices ![0, 0, 0] ⟨3, ![1, D, 64]⟩)
  (hs1 : (⟨3, ![3, D, 64]⟩ : Shape).Slices ![1, 0, 0] ⟨3, ![1, D, 64]⟩)
  (hs2 : (⟨3, ![3, D, 64]⟩ : Shape).Slices ![2, 0, 0] ⟨3, ![1, D, 64]⟩)
  (hc : (⟨3, ![1, D, 64]⟩ : Shape).ShapeCasts ⟨2, ![D, 64]⟩)
  (hcat : Shape.Concatenates [(⟨2, ![D, 64]⟩ : Shape), ⟨2, ![D, 64]⟩, ⟨2, ![D, 64]⟩, ⟨2, ![D, 64]⟩] ⟨2, ![D + D + D + D, 64]⟩ 0)
  (w8 : (⟨2, ![D, 64]⟩ : Shape).Idx → EReal) (w9 : (⟨3, ![3, D, 64]⟩ : Shape).Idx → EReal)

abbrev pieces : List ((s : Shape) × (s.Idx → EReal)) :=
  [⟨⟨2, ![D, 64]⟩, w8⟩,
   ⟨⟨2, ![D, 64]⟩, shapeCast ⟨2, ![D, 64]⟩ (extractStridedSlice ⟨3, ![1, D, 64]⟩ ![0, 0, 0] w9 hs0) hc⟩,
   ⟨⟨2, ![D, 64]⟩, shapeCast ⟨2, ![D, 64]⟩ (extractStridedSlice ⟨3, ![1, D, 64]⟩ ![1, 0, 0] w9 hs1) hc⟩,
   ⟨⟨2, ![D, 64]⟩, shapeCast ⟨2, ![D, 64]⟩ (extractStridedSlice ⟨3, ![1, D, 64]⟩ ![2, 0, 0] w9 hs2) hc⟩]

abbrev stacked : (⟨2, ![D + D + D + D, 64]⟩ : Shape).Idx → EReal :=
  concatenate ⟨2, ![D + D + D + D, 64]⟩ 0 (pieces hs0 hs1 hs2 hc w8 w9) hcat

-- the tall matrix is the four weights one above the other, so its column splits as theirs side by side
theorem stacked_apply (p : Fin (D + D + D + D)) (q : Fin 64) :
    stacked hs0 hs1 hs2 hc hcat w8 w9 (ix2 p q)
      = Cert.Spec.beside4 (fun k => w8 (ix2 k q)) (fun k => w9 (ix3 0 k q)) (fun k => w9 (ix3 1 k q)) (fun k => w9 (ix3 2 k q)) p := by
  have hi : ∀ (k : Fin D) (p : Fin (D + D + D + D)) (b : Fin 2), b.cast rfl ≠ (0 : Fin 2) →
      ((ix2 k q : (⟨2, ![D, 64]⟩ : Shape).Idx) b).val = ((ix2 p q : (⟨2, ![D + D + D + D, 64]⟩ : Shape).Idx) (b.cast rfl)).val := by
    intro k p b hb
    match b with
    | ⟨0, _⟩ => exact absurd rfl hb
    | ⟨1, _⟩ => rfl
  have hp := fun i hi4 x hx o ho (k : Fin D) p' ht =>
    concatenate_apply_piece (t := ⟨2, ![D + D + D + D, 64]⟩) 0 (pieces hs0 hs1 hs2 hc w8 w9) hcat (ix2 p' q) i hi4
      ⟨2, ![D, 64]⟩ x hx rfl o ho (ix2 k q) (hi k p') ht
  unfold Cert.Spec.beside4
  induction p using Fin.addCases with
  | left p =>
    rw [Fin.append_left]
    induction p using Fin.addCases with
    | left p =>
      rw [Fin.append_left]
      induction p using Fin.addCases with
      | left k =>
        rw [Fin.append_left]
        exact hp 0 (by show (0 : ℕ) < 4; omega) w8 rfl 0 rfl k _ (Nat.zero_add _)
      | right k =>
        rw [Fin.append_right]
        exact (hp 1 (by show (1 : ℕ) < 4; omega) _ rfl D rfl k _ rfl).trans (slice_mat_apply 0 w9 ![0, 0, 0] rfl rfl rfl hs0 hc k q)
    | right k =>
      rw [Fin.append_right]
      exact (hp 2 (by show (2 : ℕ) < 4; omega) _ rfl (D + D) rfl k _ rfl).trans (slice_mat_apply 1 w9 ![1, 0, 0] rfl rfl rfl hs1 hc k q)
  | right k =>
    rw [Fin.append_right]
    exact (hp 3 (by show (3 : ℕ) < 4; omega) _ rfl (D + (D + D)) rfl k _
      (by show D + (D + D) + k.val = D + D + D + k.val; omega)).trans (slice_mat_apply 2 w9 ![2, 0, 0] rfl rfl rfl hs2 hc k q)

end Stack

end Cert.HostTerms

end
-- ==== Proof.KI.ValHost1.lean ====
import proofs.«419321_j88648124990635_2_alg».proof.Proof.Gen.KernelIdeal.Launch
import Idealize.ShloMosaic.Lib.StableHlo.Run
import proofs.«419321_j88648124990635_2_alg».proof.Proof.KI.HostTerms

set_option maxRecDepth 2112

noncomputable section

namespace Cert.KernelIdeal.Val

open Cert.KernelIdeal Cert.KernelIdeal.Gen
open Idealize.ShloMosaic Idealize.ShloMosaic.ValueIdx Idealize.ShloMosaic.TcCoe Idealize.SL.Sem Idealize.ShloMosaic.StableHlo

variable (Wv : Valuation τ sig (Elt Ideal))

theorem host0_bias : (StableHlo.after (hostOps0 (F := Ideal)) Wv (Proc.devRef .tc main_v0) : S1x32.Idx → EReal)
    = fun i => (Wv (Proc.devRef .tc main_arg7) : S32.Idx → EReal) (ix1 (i 1)) := by
  after_results_simp
  funext i
  exact Cert.HostTerms.row_of_vec_apply (Wv (Proc.devRef .tc main_arg7)) shapeCasts_S32_S1x32 i

theorem host1_x : StableHlo.after (hostOps1 (F := Ideal)) Wv (Proc.devRef .tc main_v1) = Wv (Proc.devRef .tc main_v1) := by
  after_results_simp

theorem host1_mean0 : (StableHlo.after (hostOps1 (F := Ideal)) Wv (Proc.devRef .tc main_v29) : S100000x32.Idx → EReal) = fun i =>
    Cert.Spec.mean (Cert.Net.gath (Wv (Proc.devRef .tc main_arg1)) (fun n k => (Wv (Proc.devRef .tc main_v1) : S100000x32.Idx → EReal) (ix2 n k)))
      (Cert.Net.msk (Wv (Proc.devRef .tc main_arg2)) 0) (Cert.Net.dst (Wv (Proc.devRef .tc main_arg1))) (i 0) (i 1) := by
  after_results_simp
  exact Cert.HostTerms.meanTerm_eq gather_S100000x32_S1600000x1_S1600000x32_1_0_n_n_0_1_132 scatter_S100000x32_S1600000x1_S1600000x32_1_0_0_1
    scatter_S100000_S1600000x1_S1600000_n_0_0_1 _ _ _ _ _ _ _ _ _ _ _ _ _ _
    ⟨rfl, rfl, rfl, rfl, rfl⟩ ⟨rfl, rfl, rfl, rfl⟩ ⟨rfl, rfl, rfl⟩

theorem host1_mean1 : (StableHlo.after (hostOps1 (F := Ideal)) Wv (Proc.devRef .tc main_v46) : S100000x32.Idx → EReal) = fun i =>
    Cert.Spec.mean (Cert.Net.gath (Wv (Proc.devRef .tc main_arg1)) (fun n k => (Wv (Proc.devRef .tc main_v1) : S100000x32.Idx → EReal) (ix2 n k)))
      (Cert.Net.msk (Wv (Proc.devRef .tc main_arg2)) 1) (Cert.Net.dst (Wv (Proc.devRef .tc main_arg1))) (i 0) (i 1) := by
  after_results_simp
  exact Cert.HostTerms.meanTerm_eq gather_S100000x32_S1600000x1_S1600000x32_1_0_n_n_0_1_132 scatter_S100000x32_S1600000x1_S1600000x32_1_0_0_1
    scatter_S100000_S1600000x1_S1600000_n_0_0_1 _ _ _ _ _ _ _ _ _ _ _ _ _ _
    ⟨rfl, rfl, rfl, rfl, rfl⟩ ⟨rfl, rfl, rfl, rfl⟩ ⟨rfl, rfl, rfl⟩

set_option maxHeartbeats 1000000 in
theorem host1_mean2 : (StableHlo.after (hostOps1 (F := Ideal)) Wv (Proc.devRef .tc main_v63) : S100000x32.Idx → EReal) = fun i =>
    Cert.Spec.mean (Cert.Net.gath (Wv (Proc.devRef .tc main_arg1)) (fun n k => (Wv (Proc.devRef .tc main_v1) : S100000x32.Idx → EReal) (ix2 n k)))
      (Cert.Net.msk (Wv (Proc.devRef .tc main_arg2)) 2) (Cert.Net.dst (Wv (Proc.devRef .tc main_arg1))) (i 0) (i 1) := by
  after_results_simp
  exact Cert.HostTerms.meanTerm_eq gather_S100000x32_S1600000x1_S1600000x32_1_0_n_n_0_1_132 scatter_S100000x32_S1600000x1_S1600000x32_1_0_0_1
    scatter_S100000_S1600000x1_S1600000_n_0_0_1 _ _ _ _ _ _ _ _ _ _ _ _ _ _
    ⟨rfl, rfl, rfl, rfl, rfl⟩ ⟨rfl, rfl, rfl, rfl⟩ ⟨rfl, rfl, rfl⟩

theorem host1_weight : (StableHlo.after (hostOps1 (F := Ideal)) Wv (Proc.devRef .tc main_v70) : S128x64.Idx → EReal) = fun i =>
    Cert.Spec.beside4 (fun k => (Wv (Proc.devRef .tc main_arg8) : S32x64.Idx → EReal) (ix2 k (i 1)))
      (fun k => (Wv (Proc.devRef .tc main_arg9) : S3x32x64.Idx → EReal) (ix3 0 k (i 1)))
      (fun k => (Wv (Proc.devRef .tc main_arg9) : S3x32x64.Idx → EReal) (ix3 1 k (i 1)))
      (fun k => (Wv (Proc.devRef .tc main_arg9) : S3x32x64.Idx → EReal) (ix3 2 k (i 1))) (i 0) := by
  after_results_simp
  funext i
  obtain ⟨p, q, rfl⟩ : ∃ (p : Fin 128) (q : Fin 64), i = ix2 p q := ⟨i 0, i 1, eq_ix2 i⟩
  exact Cert.HostTerms.stacked_apply (D := 32) slices_S3x32x64_S1x32x64_0_0_0 slices_S3x32x64_S1x32x64_1_0_0
    slices_S3x32x64_S1x32x64_2_0_0 shapeCasts_S1x32x64_S32x64 concatenates_S32x64_S32x64_S32x64_S32x64_S128x64_d0 _ _ p q

theorem host1_bias : (StableHlo.after (hostOps1 (F := Ideal)) Wv (Proc.devRef .tc main_v71) : S1x64.Idx → EReal)
    = fun i => (Wv (Proc.devRef .tc main_arg10) : S64.Idx → EReal) (ix1 (i 1)) := by
  after_results_simp
  funext i
  exact Cert.HostTerms.row_of_vec_apply (Wv (Proc.devRef .tc main_arg10)) shapeCasts_S64_S1x64 i

end Cert.KernelIdeal.Val

end
-- ==== Proof.KI.ValHost2.lean ====
import proofs.«419321_j88648124990635_2_alg».proof.Proof.Gen.KernelIdeal.Launch
import proofs.«419321_j88648124990635_2_alg».proof.Proof.KI.HostTerms
import Idealize.ShloMosaic.Lib.StableHlo.Run

set_option maxRecDepth 2112

noncomputable section

namespace Cert.KernelIdeal.Val

open scoped BigOperators
open Idealize.ShloMosaic Idealize.ShloMosaic.ValueIdx Idealize.ShloMosaic.TcCoe Idealize.ShloMosaic.StableHlo
open Idealize.SL Idealize.SL.Sem
open Cert.KernelIdeal Cert.KernelIdeal.Gen

theorem col_of_vec_apply {α : Type} {n : ℕ} (v : (⟨1, ![n]⟩ : Shape).Idx → α)
    (h : (⟨1, ![n]⟩ : Shape).ShapeCasts ⟨2, ![n, 1]⟩) (j : (⟨2, ![n, 1]⟩ : Shape).Idx) :
    shapeCast ⟨2, ![n, 1]⟩ v h j = v (ix1 (j 0)) := by
  refine shapeCast_apply v h j (ix1 (j 0)) ?_
  rw [Shape.rowMajor_val_one, Shape.rowMajor_val_two]
  have h1 : (j 1).val < 1 := (j 1).isLt
  show (j 0).val = (j 0).val * 1 + (j 1).val
  omega

variable (Wv : Valuation τ sig (Elt Ideal))

theorem host2_x : StableHlo.after (hostOps2 (F := Ideal)) Wv (Proc.devRef .tc main_v72) = Wv (Proc.devRef .tc main_v72) := by
  after_results_simp

theorem host2_mean0 : (StableHlo.after (hostOps2 (F := Ideal)) Wv (Proc.devRef .tc main_v100) : S100000x64.Idx → EReal) = fun i =>
    Cert.Spec.mean (Cert.Net.gath (Wv (Proc.devRef .tc main_arg1)) (fun n k => (Wv (Proc.devRef .tc main_v72) : S100000x64.Idx → EReal) (ix2 n k)))
      (Cert.Net.msk (Wv (Proc.devRef .tc main_arg2)) 0) (Cert.Net.dst (Wv (Proc.devRef .tc main_arg1))) (i 0) (i 1) := by
  after_results_simp
  exact Cert.HostTerms.meanTerm_eq gather_S100000x64_S1600000x1_S1600000x64_1_0_n_n_0_1_164 scatter_S100000x64_S1600000x1_S1600000x64_1_0_0_1
    scatter_S100000_S1600000x1_S1600000_n_0_0_1 _ _ _ _ _ _ _ _ _ _ _ _ _ _
    ⟨rfl, rfl, rfl, rfl, rfl⟩ ⟨rfl, rfl, rfl, rfl⟩ ⟨rfl, rfl, rfl⟩

set_option maxHeartbeats 1000000 in
theorem host2_mean1 : (StableHlo.after (hostOps2 (F := Ideal)) Wv (Proc.devRef .tc main_v117) : S100000x64.Idx → EReal) = fun i =>
    Cert.Spec.mean (Cert.Net.gath (Wv (Proc.devRef .tc main_arg1)) (fun n k => (Wv (Proc.devRef .tc main_v72) : S100000x64.Idx → EReal) (ix2 n k)))
      (Cert.Net.msk (Wv (Proc.devRef .tc main_arg2)) 1) (Cert.Net.dst (Wv (Proc.devRef .tc main_arg1))) (i 0) (i 1) := by
  after_results_simp
  exact Cert.HostTerms.meanTerm_eq gather_S100000x64_S1600000x1_S1600000x64_1_0_n_n_0_1_164 scatter_S100000x64_S1600000x1_S1600000x64_1_0_0_1
    scatter_S100000_S1600000x1_S1600000_n_0_0_1 _ _ _ _ _ _ _ _ _ _ _ _ _ _
    ⟨rfl, rfl, rfl, rfl, rfl⟩ ⟨rfl, rfl, rfl, rfl⟩ ⟨rfl, rfl, rfl⟩

set_option maxHeartbeats 1000000 in
theorem host2_mean2 : (StableHlo.after (hostOps2 (F := Ideal)) Wv (Proc.devRef .tc main_v134) : S100000x64.Idx → EReal) = fun i =>
    Cert.Spec.mean (Cert.Net.gath (Wv (Proc.devRef .tc main_arg1)) (fun n k => (Wv (Proc.devRef .tc main_v72) : S100000x64.Idx → EReal) (ix2 n k)))
      (Cert.Net.msk (Wv (Proc.devRef .tc main_arg2)) 2) (Cert.Net.dst (Wv (Proc.devRef .tc main_arg1))) (i 0) (i 1) := by
  after_results_simp
  exact Cert.HostTerms.meanTerm_eq gather_S100000x64_S1600000x1_S1600000x64_1_0_n_n_0_1_164 scatter_S100000x64_S1600000x1_S1600000x64_1_0_0_1
    scatter_S100000_S1600000x1_S1600000_n_0_0_1 _ _ _ _ _ _ _ _ _ _ _ _ _ _
    ⟨rfl, rfl, rfl, rfl, rfl⟩ ⟨rfl, rfl, rfl, rfl⟩ ⟨rfl, rfl, rfl⟩

theorem host2_weight : (StableHlo.after (hostOps2 (F := Ideal)) Wv (Proc.devRef .tc main_v141) : S256x64.Idx → EReal) = fun i =>
    Cert.Spec.beside4 (fun k => (Wv (Proc.devRef .tc main_arg11) : S64x64.Idx → EReal) (ix2 k (i 1)))
      (fun k => (Wv (Proc.devRef .tc main_arg12) : S3x64x64.Idx → EReal) (ix3 0 k (i 1)))
      (fun k => (Wv (Proc.devRef .tc main_arg12) : S3x64x64.Idx → EReal) (ix3 1 k (i 1)))
      (fun k => (Wv (Proc.devRef .tc main_arg12) : S3x64x64.Idx → EReal) (ix3 2 k (i 1))) (i 0) := by
  after_results_simp
  funext i
  obtain ⟨p, q, rfl⟩ : ∃ (p : Fin 256) (q : Fin 64), i = ix2 p q := ⟨i 0, i 1, eq_ix2 i⟩
  exact Cert.HostTerms.stacked_apply (D := 64) slices_S3x64x64_S1x64x64_0_0_0 slices_S3x64x64_S1x64x64_1_0_0
    slices_S3x64x64_S1x64x64_2_0_0 shapeCasts_S1x64x64_S64x64 concatenates_S64x64_S64x64_S64x64_S64x64_S256x64_d0 _ _ p q

theorem host2_bias : (StableHlo.after (hostOps2 (F := Ideal)) Wv (Proc.devRef .tc main_v142) : S1x64.Idx → EReal) = fun i =>
    (Wv (Proc.devRef .tc main_arg13) : S64.Idx → EReal) (ix1 (i 1)) := by
  after_results_simp
  funext i
  exact Cert.HostTerms.row_of_vec_apply _ shapeCasts_S64_S1x64 i

theorem host3_x : StableHlo.after (hostOps3 (F := Ideal)) Wv (Proc.devRef .tc main_v143) = Wv (Proc.devRef .tc main_v143) := by
  after_results

theorem host3_ids : (StableHlo.after (hostOps3 (F := Ideal)) Wv (Proc.devRef .tc main_v144) : S100000x1.Idx → BitVec 32) = fun i =>
    (Wv (Proc.devRef .tc main_arg3) : S100000.Idx → BitVec 32) (ix1 (i 0)) := by
  after_results
  funext i
  exact col_of_vec_apply _ shapeCasts_S100000_S100000x1 i

theorem host3_bias : (StableHlo.after (hostOps3 (F := Ideal)) Wv (Proc.devRef .tc main_v145) : S1x10.Idx → EReal) = fun i =>
    (Wv (Proc.devRef .tc main_arg15) : S10.Idx → EReal) (ix1 (i 1)) := by
  after_results
  funext i
  exact Cert.HostTerms.row_of_vec_apply _ shapeCasts_S10_S1x10 i

end Cert.KernelIdeal.Val

end
-- ==== Proof.KI.Chain.lean ====
import proofs.«419321_j88648124990635_2_alg».proof.Proof.KI.RunArgs
import proofs.«419321_j88648124990635_2_alg».proof.Proof.KI.ValEmbed
import proofs.«419321_j88648124990635_2_alg».proof.Proof.KI.ValDense1
import proofs.«419321_j88648124990635_2_alg».proof.Proof.KI.ValDense2
import proofs.«419321_j88648124990635_2_alg».proof.Proof.KI.ValPool
import proofs.«419321_j88648124990635_2_alg».proof.Proof.KI.ValHost1
import proofs.«419321_j88648124990635_2_alg».proof.Proof.KI.ValHost2
import proofs.«419321_j88648124990635_2_alg».proof.Proof.Net
import Idealize.ShloMosaic.Lib.ValueIdx

noncomputable section

namespace Cert.KernelIdeal.Val

open Cert.KernelIdeal Cert.KernelIdeal.Gen Cert.KernelIdeal.Hand Idealize.ShloMosaic Idealize.ShloMosaic.ValueIdx
open Idealize.ShloMosaic.TcCoe
open scoped BigOperators

variable (m : (ℓ : Loc nD τ sig) → Buf (Elt Ideal) ℓ) (ρ : Dev nD → PrngReg) (c : Dev nD)

set_option quotPrecheck false
local notation "A0" => (m ((c : Thread nD τ).loc main_arg0) : S100000x2.Idx → BitVec 32)
local notation "A1" => (m ((c : Thread nD τ).loc main_arg1) : S2x1600000.Idx → BitVec 32)
local notation "A2" => (m ((c : Thread nD τ).loc main_arg2) : S1600000.Idx → BitVec 32)
local notation "A3" => (m ((c : Thread nD τ).loc main_arg3) : S100000.Idx → BitVec 32)
local notation "A4" => (m ((c : Thread nD τ).loc main_arg4) : S16x8.Idx → EReal)
local notation "A5" => (m ((c : Thread nD τ).loc main_arg5) : S8x8.Idx → EReal)
local notation "A6" => (m ((c : Thread nD τ).loc main_arg6) : S16x32.Idx → EReal)
local notation "A7" => (m ((c : Thread nD τ).loc main_arg7) : S32.Idx → EReal)
local notation "A8" => (m ((c : Thread nD τ).loc main_arg8) : S32x64.Idx → EReal)
local notation "A9" => (m ((c : Thread nD τ).loc main_arg9) : S3x32x64.Idx → EReal)
local notation "A10" => (m ((c : Thread nD τ).loc main_arg10) : S64.Idx → EReal)
local notation "A11" => (m ((c : Thread nD τ).loc main_arg11) : S64x64.Idx → EReal)
local notation "A12" => (m ((c : Thread nD τ).loc main_arg12) : S3x64x64.Idx → EReal)
local notation "A13" => (m ((c : Thread nD τ).loc main_arg13) : S64.Idx → EReal)
local notation "A14" => (m ((c : Thread nD τ).loc main_arg14) : S64x10.Idx → EReal)
local notation "A15" => (m ((c : Thread nD τ).loc main_arg15) : S10.Idx → EReal)

/-- After the first region the node features are the embedding stage of the launch arrays, in the kernels' form. -/
theorem stage_x0 (hs : ∀ n : Fin 100000, (A0 (ix2 n 0)).toNat < 16) (hcol : ∀ n : Fin 100000, (A0 (ix2 n 1)).toNat < 8) :
    (W2 m ρ c (Proc.devRef .tc main_v1) : S100000x32.Idx → EReal) = fun i => Cert.Net.x0K A0 A4 A5 A6 A7 (i 0) (i 1) := by
  have a0 : (V1 m ρ c main_arg0 : S100000x2.Idx → BitVec 32) = A0 := W1_arg m ρ c _ (by decide)
  have a4 : (V1 m ρ c main_arg4 : S16x8.Idx → EReal) = A4 := W1_arg m ρ c _ (by decide)
  have a5 : (V1 m ρ c main_arg5 : S8x8.Idx → EReal) = A5 := W1_arg m ρ c _ (by decide)
  have a6 : (V1 m ρ c main_arg6 : S16x32.Idx → EReal) = A6 := W1_arg m ρ c _ (by decide)
  have vb : (V1 m ρ c main_v0 : S1x32.Idx → EReal) = fun i => A7 (ix1 (i 1)) := host0_bias (W0 m ρ c)
  refine ((W2_arr m ρ c 5).trans (embed_array (V1 m ρ) c (Cert.Net.shapeRow A0) (Cert.Net.colorRow A0)
    (fun n => by rw [a0]; exact (Cert.Net.shapeRow_word A0 n (hs n)).symm)
    (fun n => by rw [a0]; exact (Cert.Net.colorRow_word A0 n (hcol n)).symm))).trans ?_
  rw [a4, a5, a6, vb]
  rfl

/-- After the second region they are the first relational layer of the launch arrays: the means, the stacked weights and the bias row are what the host operations leave. -/
theorem stage_x1 (hs : ∀ n : Fin 100000, (A0 (ix2 n 0)).toNat < 16) (hcol : ∀ n : Fin 100000, (A0 (ix2 n 1)).toNat < 8) :
    (W4 m ρ c (Proc.devRef .tc main_v72) : S100000x64.Idx → EReal) = fun i => Cert.Net.x1K A0 A1 A2 A4 A5 A6 A7 A8 A9 A10 (i 0) (i 1) := by
  have hx := stage_x0 m ρ c hs hcol
  have a1 : (W2 m ρ c (Proc.devRef .tc main_arg1) : S2x1600000.Idx → BitVec 32) = A1 := W2_arg m ρ c _ (by decide)
  have a2 : (W2 m ρ c (Proc.devRef .tc main_arg2) : S1600000.Idx → BitVec 32) = A2 := W2_arg m ρ c _ (by decide)
  have aroot : (W2 m ρ c (Proc.devRef .tc main_arg8) : S32x64.Idx → EReal) = A8 := W2_arg m ρ c _ (by decide)
  have arel : (W2 m ρ c (Proc.devRef .tc main_arg9) : S3x32x64.Idx → EReal) = A9 := W2_arg m ρ c _ (by decide)
  have abias : (W2 m ρ c (Proc.devRef .tc main_arg10) : S64.Idx → EReal) = A10 := W2_arg m ρ c _ (by decide)
  have vx : (V3 m ρ c main_v1 : S100000x32.Idx → EReal) = fun i => Cert.Net.x0K A0 A4 A5 A6 A7 (i 0) (i 1) := (host1_x (W2 m ρ c)).trans hx
  have vm0 : (V3 m ρ c main_v29 : S100000x32.Idx → EReal) = fun i =>
      Cert.Spec.mean (Cert.Net.gath A1 (Cert.Net.x0K A0 A4 A5 A6 A7)) (Cert.Net.msk A2 0) (Cert.Net.dst A1) (i 0) (i 1) := by
    refine (host1_mean0 (W2 m ρ c)).trans ?_
    rw [a1, a2, hx]
    rfl
  have vm1 : (V3 m ρ c main_v46 : S100000x32.Idx → EReal) = fun i =>
      Cert.Spec.mean (Cert.Net.gath A1 (Cert.Net.x0K A0 A4 A5 A6 A7)) (Cert.Net.msk A2 1) (Cert.Net.dst A1) (i 0) (i 1) := by
    refine (host1_mean1 (W2 m ρ c)).trans ?_
    rw [a1, a2, hx]
    rfl
  have vm2 : (V3 m ρ c main_v63 : S100000x32.Idx → EReal) = fun i =>
      Cert.Spec.mean (Cert.Net.gath A1 (Cert.Net.x0K A0 A4 A5 A6 A7)) (Cert.Net.msk A2 2) (Cert.Net.dst A1) (i 0) (i 1) := by
    refine (host1_mean2 (W2 m ρ c)).trans ?_
    rw [a1, a2, hx]
    rfl
  have vw : (V3 m ρ c main_v70 : S128x64.Idx → EReal) = fun i =>
      Cert.Spec.beside4 (fun k => A8 (ix2 k (i 1))) (fun k => A9 (ix3 0 k (i 1)))
        (fun k => A9 (ix3 1 k (i 1))) (fun k => A9 (ix3 2 k (i 1))) (i 0) := by
    refine (host1_weight (W2 m ρ c)).trans ?_
    rw [aroot, arel]
  have vb : (V3 m ρ c main_v71 : S1x64.Idx → EReal) = fun i => A10 (ix1 (i 1)) := by
    refine (host1_bias (W2 m ρ c)).trans ?_
    rw [abias]
  refine ((W4_arr m ρ c 6).trans (dense1_array (V3 m ρ) c)).trans ?_
  rw [vx, vm0, vm1, vm2, vw, vb]
  rfl

/-- After the third region they are the second relational layer of the launch arrays. -/
theorem stage_x2 (hs : ∀ n : Fin 100000, (A0 (ix2 n 0)).toNat < 16) (hcol : ∀ n : Fin 100000, (A0 (ix2 n 1)).toNat < 8) :
    (W6 m ρ c (Proc.devRef .tc main_v143) : S100000x64.Idx → EReal) = fun i => Cert.Net.x2K A0 A1 A2 A4 A5 A6 A7 A8 A9 A10 A11 A12 A13 (i 0) (i 1) := by
  have hx := stage_x1 m ρ c hs hcol
  have a1 : (W4 m ρ c (Proc.devRef .tc main_arg1) : S2x1600000.Idx → BitVec 32) = A1 := W4_arg m ρ c _ (by decide)
  have a2 : (W4 m ρ c (Proc.devRef .tc main_arg2) : S1600000.Idx → BitVec 32) = A2 := W4_arg m ρ c _ (by decide)
  have aroot : (W4 m ρ c (Proc.devRef .tc main_arg11) : S64x64.Idx → EReal) = A11 := W4_arg m ρ c _ (by decide)
  have arel : (W4 m ρ c (Proc.devRef .tc main_arg12) : S3x64x64.Idx → EReal) = A12 := W4_arg m ρ c _ (by decide)
  have abias : (W4 m ρ c (Proc.devRef .tc main_arg13) : S64.Idx → EReal) = A13 := W4_arg m ρ c _ (by decide)
  have vx : (V5 m ρ c main_v72 : S100000x64.Idx → EReal) = fun i => Cert.Net.x1K A0 A1 A2 A4 A5 A6 A7 A8 A9 A10 (i 0) (i 1) := (host2_x (W4 m ρ c)).trans hx
  have vm0 : (V5 m ρ c main_v100 : S100000x64.Idx → EReal) = fun i =>
      Cert.Spec.mean (Cert.Net.gath A1 (Cert.Net.x1K A0 A1 A2 A4 A5 A6 A7 A8 A9 A10)) (Cert.Net.msk A2 0) (Cert.Net.dst A1) (i 0) (i 1) := by
    refine (host2_mean0 (W4 m ρ c)).trans ?_
    rw [a1, a2, hx]
    rfl
  have vm1 : (V5 m ρ c main_v117 : S100000x64.Idx → EReal) = fun i =>
      Cert.Spec.mean (Cert.Net.gath A1 (Cert.Net.x1K A0 A1 A2 A4 A5 A6 A7 A8 A9 A10)) (Cert.Net.msk A2 1) (Cert.Net.dst A1) (i 0) (i 1) := by
    refine (host2_mean1 (W4 m ρ c)).trans ?_
    rw [a1, a2, hx]
    rfl
  have vm2 : (V5 m ρ c main_v134 : S100000x64.Idx → EReal) = fun i =>
      Cert.Spec.mean (Cert.Net.gath A1 (Cert.Net.x1K A0 A1 A2 A4 A5 A6 A7 A8 A9 A10)) (Cert.Net.msk A2 2) (Cert.Net.dst A1) (i 0) (i 1) := by
    refine (host2_mean2 (W4 m ρ c)).trans ?_
    rw [a1, a2, hx]
    rfl
  have vw : (V5 m ρ c main_v141 : S256x64.Idx → EReal) = fun i =>
      Cert.Spec.beside4 (fun k => A11 (ix2 k (i 1))) (fun k => A12 (ix3 0 k (i 1)))
        (fun k => A12 (ix3 1 k (i 1))) (fun k => A12 (ix3 2 k (i 1))) (i 0) := by
    refine (host2_weight (W4 m ρ c)).trans ?_
    rw [aroot, arel]
  have vb : (V5 m ρ c main_v142 : S1x64.Idx → EReal) = fun i => A13 (ix1 (i 1)) := by
    refine (host2_bias (W4 m ρ c)).trans ?_
    rw [abias]
  refine ((W6_arr m ρ c 6).trans (dense2_array (V5 m ρ) c)).trans ?_
  rw [vx, vm0, vm1, vm2, vw, vb]
  rfl

/-- After the last region the result is the pooled classifier of the launch arrays, in the kernels' form. -/
theorem kernel_value (hs : ∀ n : Fin 100000, (A0 (ix2 n 0)).toNat < 16) (hcol : ∀ n : Fin 100000, (A0 (ix2 n 1)).toNat < 8) :
    (W8 m ρ c (Proc.devRef .tc main_v146) : S512x10.Idx → EReal)
      = Cert.Net.outK A0 A1 A2 A3 A4 A5 A6 A7 A8 A9 A10 A11 A12 A13 A14 A15 := by
  have hx := stage_x2 m ρ c hs hcol
  have a3 : (W6 m ρ c (Proc.devRef .tc main_arg3) : S100000.Idx → BitVec 32) = A3 := W6_arg m ρ c _ (by decide)
  have a14 : (V7 m ρ c main_arg14 : S64x10.Idx → EReal) = A14 := W7_arg m ρ c _ (by decide)
  have a15 : (W6 m ρ c (Proc.devRef .tc main_arg15) : S10.Idx → EReal) = A15 := W6_arg m ρ c _ (by decide)
  have vx : (V7 m ρ c main_v143 : S100000x64.Idx → EReal) = fun i => Cert.Net.x2K A0 A1 A2 A4 A5 A6 A7 A8 A9 A10 A11 A12 A13 (i 0) (i 1) := (host3_x (W6 m ρ c)).trans hx
  have vg : (V7 m ρ c main_v144 : S100000x1.Idx → BitVec 32) = fun i => A3 (ix1 (i 0)) := by
    refine (host3_ids (W6 m ρ c)).trans ?_
    rw [a3]
  have vb : (V7 m ρ c main_v145 : S1x10.Idx → EReal) = fun i => A15 (ix1 (i 1)) := by
    refine (host3_bias (W6 m ρ c)).trans ?_
    rw [a15]
  refine ((W8_arr m ρ c 4).trans (pool_array (V7 m ρ) c)).trans ?_
  rw [vx, vg, a14, vb]
  rfl

end Cert.KernelIdeal.Val

end
-- ==== Proof.PreFacts.lean ====
import proofs.«419321_j88648124990635_2_alg».proof.Pre_finite_inputs
import proofs.«419321_j88648124990635_2_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic Idealize.ShloMosaic.ValueIdx Cert.Pre_finite_inputs

variable [Cert.Pre_finite_inputs.Facts]

instance : Subsingleton S_.Idx := ⟨fun a b => funext fun d => d.elim0⟩

def IsReal (x : EReal) : Prop := ∃ r : ℝ, x = (r : EReal)

theorem ofBits_inf : Ideal.ofBits .f32 0x7F800000#32 = (⊤ : EReal) := by simp [Ideal.ofBits, Ideal.ieee]

/-- An extended real whose absolute value is below `+inf` is a real number. -/
theorem isReal_of_abs_lt (x : EReal)
    (h : Ideal.cmp .olt (max x (-x)) (Ideal.ofBits .f32 0x7F800000#32) = 1#1) : IsReal x := by
  rw [ofBits_inf] at h
  have h' : max x (-x) < ⊤ := by
    simpa only [Ideal.cmp, StableHlo.Predicate.ofBool_eq_one_iff, decide_eq_true_eq] using h
  induction x using EReal.rec with
  | bot => exact absurd h' (by simp)
  | coe r => exact ⟨r, rfl⟩
  | top => exact absurd h' (by simp)

theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant S_ .f32 0x7F800000#32)))
          (constantI S_ 1 1#1) hr hu ix0 = 1#1) (i : s.Idx) : IsReal (x i) :=
  isReal_of_abs_lt (x i) (Host.reduce_andi_all _ _ hr hu ix0 e i)

theorem column_read (a0 : IVec S100000x2 32) (c : Fin 2) (off : Fin S100000x2.rank → Nat) (h0 : off 0 = 0) (h1 : off 1 = c.val)
    (hs : S100000x2.Slices off S100000x1) (hc : S100000x1.ShapeCasts S100000) (n : Fin 100000) :
    shapeCast S100000 (extractStridedSlice S100000x1 off a0 hs) hc (ix1 n) = a0 (ix2 n c) := by
  have hk : Shape.reshapeEquiv hc (ix1 n) = (ix2 n (0 : Fin 1) : S100000x1.Idx) :=
    Shape.reshapeEquiv_eq_of_rowMajor hc (by
      rw [Shape.rowMajor_val_two, Shape.rowMajor_val_one]
      show n.val * 1 + 0 = n.val
      omega)
  unfold shapeCast extractStridedSlice
  rw [hk]
  refine congrArg a0 (funext fun a => ?_)
  match a with
  | ⟨0, _⟩ => exact Fin.ext (by show off 0 + n.val = n.val; omega)
  | ⟨1, _⟩ => exact Fin.ext (by show off 1 + 0 = c.val; omega)

theorem toNat_lt_of_signed (w : BitVec 32) (K : Nat) (hK : K < 2 ^ 31)
    (hge : IntOp.cmpi .sge w 0#32 = 1#1) (hlt : IntOp.cmpi .slt w (BitVec.ofNat 32 K) = 1#1) : w.toNat < K := by
  have h0 : (0 : Int) ≤ w.toInt := by
    have := hge
    simp only [IntOp.cmpi, StableHlo.Predicate.ofBool_eq_one_iff, BitVec.sle, decide_eq_true_eq] at this
    simpa using this
  have h1 : w.toInt < (K : Int) := by
    have := hlt
    simp only [IntOp.cmpi, StableHlo.Predicate.ofBool_eq_one_iff, BitVec.slt, decide_eq_true_eq,
      StableHlo.Predicate.toInt_ofNat_small K hK] at this
    exact this
  have hw := BitVec.toInt_eq_toNat_cond w
  have := w.isLt
  split at hw <;> omega

theorem column_lt (a0 : IVec S100000x2 32) (c : Fin 2) (K : Nat) (hK : K < 2 ^ 31)
    (off : Fin S100000x2.rank → Nat) (h0 : off 0 = 0) (h1 : off 1 = c.val)
    (hs : S100000x2.Slices off S100000x1) (hc : S100000x1.ShapeCasts S100000)
    (hb : S_.BroadcastsInDim S100000 (![] : Fin 0 → Fin S100000.rank)) (hr : S100000.ReducesTo [0] S_) (hu : 0 < S_.numel)
    (ege : Host.reduce IntOp.andi
          (cmpi .sge (shapeCast S100000 (extractStridedSlice S100000x1 off a0 hs) hc)
            (broadcastInDim S100000 ![] hb (constantI S_ 32 0#32)))
          (constantI S_ 1 1#1) hr hu ix0 = 1#1)
    (elt : Host.reduce IntOp.andi
          (cmpi .slt (shapeCast S100000 (extractStridedSlice S100000x1 off a0 hs) hc)
            (broadcastInDim S100000 ![] hb (constantI S_ 32 (BitVec.ofNat 32 K))))
          (constantI S_ 1 1#1) hr hu ix0 = 1#1)
    (n : Fin 100000) : (a0 (ix2 n c)).toNat < K := by
  have g := Host.reduce_andi_all _ _ hr hu ix0 ege (ix1 n)
  have l := Host.reduce_andi_all _ _ hr hu ix0 elt (ix1 n)
  have g' : IntOp.cmpi .sge (shapeCast S100000 (extractStridedSlice S100000x1 off a0 hs) hc (ix1 n)) 0#32 = 1#1 := g
  have l' : IntOp.cmpi .slt (shapeCast S100000 (extractStridedSlice S100000x1 off a0 hs) hc (ix1 n)) (BitVec.ofNat 32 K) = 1#1 := l
  rw [column_read a0 c off h0 h1 hs hc n] at g' l'
  exact toNat_lt_of_signed _ K hK g' l'

theorem and_split {x y : IVec S_ 1} (h : andi x y ix0 = 1#1) : x ix0 = 1#1 ∧ y ix0 = 1#1 := IntOp.andi_eq_one.1 h

/-- The precondition decoded: every float entry is a real number and the two identifier columns lie in 0..15 and 0..7. -/
theorem of_pre (a0 : IVec S100000x2 32) (a1 : IVec S2x1600000 32) (a2 : IVec S1600000 32) (a3 : IVec S100000 32)
    (a4 : FVec Ideal S16x8 .f32) (a5 : FVec Ideal S8x8 .f32) (a6 : FVec Ideal S16x32 .f32) (a7 : FVec Ideal S32 .f32)
    (a8 : FVec Ideal S32x64 .f32) (a9 : FVec Ideal S3x32x64 .f32) (a10 : FVec Ideal S64 .f32) (a11 : FVec Ideal S64x64 .f32)
    (a12 : FVec Ideal S3x64x64 .f32) (a13 : FVec Ideal S64 .f32) (a14 : FVec Ideal S64x10 .f32) (a15 : FVec Ideal S10 .f32)
    (h : Cert.Pre_finite_inputs.fn (F := Ideal) a0 a1 a2 a3 a4 a5 a6 a7 a8 a9 a10 a11 a12 a13 a14 a15 = fun _ => 1#1) :
    (∀ i, IsReal (a4 i)) ∧ (∀ i, IsReal (a5 i)) ∧ (∀ i, IsReal (a6 i)) ∧ (∀ i, IsReal (a7 i)) ∧ (∀ i, IsReal (a8 i))
      ∧ (∀ i, IsReal (a9 i)) ∧ (∀ i, IsReal (a10 i)) ∧ (∀ i, IsReal (a11 i)) ∧ (∀ i, IsReal (a12 i))
      ∧ (∀ i, IsReal (a13 i)) ∧ (∀ i, IsReal (a14 i)) ∧ (∀ i, IsReal (a15 i))
      ∧ (∀ n : Fin 100000, (a0 (Idealize.ShloMosaic.ValueIdx.ix2 n 0)).toNat < 16)
      ∧ (∀ n : Fin 100000, (a0 (Idealize.ShloMosaic.ValueIdx.ix2 n 1)).toNat < 8) := by
  have h0 := congrFun h ix0
  dsimp only [fn, fn_part1, fn_part2, fn_part3, fn_part4] at h0
  obtain ⟨h0, c1lt⟩ := and_split h0
  obtain ⟨h0, c1ge⟩ := and_split h0
  obtain ⟨h0, c0lt⟩ := and_split h0
  obtain ⟨h0, c0ge⟩ := and_split h0
  obtain ⟨h0, f15⟩ := and_split h0
  obtain ⟨h0, f14⟩ := and_split h0
  obtain ⟨h0, f13⟩ := and_split h0
  obtain ⟨h0, f12⟩ := and_split h0
  obtain ⟨h0, f11⟩ := and_split h0
  obtain ⟨h0, f10⟩ := and_split h0
  obtain ⟨h0, f9⟩ := and_split h0
  obtain ⟨h0, f8⟩ := and_split h0
  obtain ⟨h0, f7⟩ := and_split h0
  obtain ⟨h0, f6⟩ := and_split h0
  obtain ⟨f4, f5⟩ := and_split h0
  have r4 := real_of_all a4 _ _ _ f4
  have r5 := real_of_all a5 _ _ _ f5
  have r6 := real_of_all a6 _ _ _ f6
  have r7 := real_of_all a7 _ _ _ f7
  have r8 := real_of_all a8 _ _ _ f8
  have r9 := real_of_all a9 _ _ _ f9
  have r10 := real_of_all a10 _ _ _ f10
  have r11 := real_of_all a11 _ _ _ f11
  have r12 := real_of_all a12 _ _ _ f12
  have r13 := real_of_all a13 _ _ _ f13
  have r14 := real_of_all a14 _ _ _ f14
  have r15 := real_of_all a15 _ _ _ f15
  have k0 := column_lt a0 0 16 (by norm_num) ![0, 0] rfl rfl _ _ _ _ _ c0ge c0lt
  have k1 := column_lt a0 1 8 (by norm_num) ![0, 1] rfl rfl _ _ _ _ _ c1ge c1lt
  exact ⟨r4, r5, r6, r7, r8, r9, r10, r11, r12, r13, r14, r15, k0, k1⟩

end Cert.PreFacts

end
-- ==== Proof.RefEnds.lean ====
import proofs.«419321_j88648124990635_2_alg».proof.Proof.KI.HostTerms
import proofs.«419321_j88648124990635_2_alg».proof.Proof.Gen.ReferenceIdeal.Read

noncomputable section

open scoped BigOperators
open Idealize.ShloMosaic Idealize.ShloMosaic.ValueIdx
open Cert.ReferenceIdeal Cert.ReferenceIdeal.Gen Cert.ReferenceIdeal.Read

namespace Cert.ReferenceIdeal.RefValue

theorem shape_rows (x0 x4) (n : Fin 100000) (a : Fin 8) :
    val_main_v8 (F := Ideal) x0 x4 (ix2 n a) = x4 (ix2 (Cert.Net.shapeRow x0 n) a) := by
  refine (Cert.HostTerms.looked_apply gather_S16x8_S100000x1_S100000x8_1_0_n_n_0_1_18 bcast_S_S100000 bcast_S100000_S100000x1_0 x4
    (val_main_v1 (F := Ideal) x0) ⟨rfl, rfl, rfl, rfl, rfl⟩ (by decide) n a).trans ?_
  rw [val_main_v1_apply, val_main_v0_apply, show idx_main_v0 (idx_main_v1 (ix1 n)) = ix2 n 0 from
    funext fun b => Fin.ext (by match b with | ⟨0, _⟩ => exact Nat.div_one _ | ⟨1, _⟩ => rfl)]
  rfl

theorem color_rows (x0 x5) (n : Fin 100000) (a : Fin 8) :
    val_main_v17 (F := Ideal) x0 x5 (ix2 n a) = x5 (ix2 (Cert.Net.colorRow x0 n) a) := by
  refine (Cert.HostTerms.looked_apply gather_S8x8_S100000x1_S100000x8_1_0_n_n_0_1_18 bcast_S_S100000 bcast_S100000_S100000x1_0 x5
    (val_main_v10 (F := Ideal) x0) ⟨rfl, rfl, rfl, rfl, rfl⟩ (by decide) n a).trans ?_
  rw [val_main_v10_apply, val_main_v9_apply, show idx_main_v9 (idx_main_v10 (ix1 n)) = ix2 n 1 from
    funext fun b => Fin.ext (by match b with | ⟨0, _⟩ => exact Nat.div_one _ | ⟨1, _⟩ => rfl)]
  rfl

theorem joined_row (A B : (⟨S100000x8, .f32⟩ : BufTy).Contents (Elt Ideal)) (n : Fin 100000) (k : Fin (8 + 8)) :
    concatenate S100000x16 1 [⟨S100000x8, A⟩, ⟨S100000x8, B⟩] concatenates_S100000x8_S100000x8_S100000x16_d1 (ix2 n k)
      = Fin.append (fun a => A (ix2 n a)) (fun a => B (ix2 n a)) k := by
  refine Fin.addCases (fun a => ?_) (fun a => ?_) k
  · rw [Fin.append_left]
    exact concatenate_pair_apply_left (t := S100000x16) (s₁ := S100000x8) (s₂ := S100000x8) 1 A B
      concatenates_S100000x8_S100000x8_S100000x16_d1 (ix2 n (Fin.castAdd 8 a)) rfl (ix2 n a)
      (fun b => by match b with | ⟨0, _⟩ => rfl | ⟨1, _⟩ => rfl)
  · rw [Fin.append_right]
    exact concatenate_pair_apply_right (t := S100000x16) (s₁ := S100000x8) (s₂ := S100000x8) 1 A B
      concatenates_S100000x8_S100000x8_S100000x16_d1 (ix2 n (Fin.natAdd 8 a)) rfl rfl (ix2 n a)
      (fun b hb => by match b with | ⟨0, _⟩ => rfl | ⟨1, _⟩ => exact absurd rfl hb)
      (by show a.val + 8 = 8 + a.val; omega)

theorem looked_up_row (x0 x4 x5) (n : Fin 100000) (k : Fin (8 + 8)) :
    val_main_v18 (F := Ideal) x0 x4 x5 (ix2 n k)
      = Cert.Spec.beside (fun a => x4 (ix2 (Cert.Net.shapeRow x0 n) a)) (fun a => x5 (ix2 (Cert.Net.colorRow x0 n) a)) k := by
  unfold val_main_v18 Cert.Spec.beside
  rw [joined_row, funext (shape_rows x0 x4 n), funext (color_rows x0 x5 n)]

theorem ref_x0 (x0 x4 x5 x6 x7) :
    (fun n j => val_main_v23 (F := Ideal) x0 x4 x5 x6 x7 (ix2 n j)) = Cert.Net.x0 x0 x4 x5 x6 x7 := by
  funext n j
  have eb : idx_main_v20 (idx_main_v21 (ix2 n j)) = ix1 j := eq_ix1 _
  have el : ∀ k : Fin 16, lidx_main_v19 (ix2 n j) k = ix2 n k := fun _ => eq_ix2 _
  have er : ∀ k : Fin 16, ridx_main_v19 (ix2 n j) k = ix2 k j := fun _ => eq_ix2 _
  rw [val_main_v23_apply, val_main_v22_apply, val_main_v19_apply, val_main_v21_apply, val_main_v20_apply,
    val_main_call0_v0_apply, val_main_call0_cst_apply, eb, Ideal.maximumf_def, Ideal.addf_def, Ideal.ofBits_def,
    Ideal.ofBits_zero_f32]
  unfold Cert.Net.x0 Cert.Spec.embed
  have key : ∀ k : Fin (8 + 8), val_main_v18 (F := Ideal) x0 x4 x5 (lidx_main_v19 (ix2 n j) k) * x6 (ridx_main_v19 (ix2 n j) k)
      = Cert.Spec.beside (fun a => x4 (ix2 (Cert.Net.shapeRow x0 n) a)) (fun a => x5 (ix2 (Cert.Net.colorRow x0 n) a)) k * x6 (ix2 k j) :=
    fun k => by rw [el, er, looked_up_row]
  exact congrArg₂ max (congrArg₂ (· + ·) (Finset.sum_congr rfl fun k _ => key k) rfl) rfl

theorem graph_word (x3) (n : Fin 100000) :
    val_main_v183 (F := Ideal) x3 (ix2 n 0) = x3 (ix1 n) := by
  rw [val_main_v183_apply]
  exact congrArg x3 (eq_ix1 _)

theorem landing_eq_members (x3) (g : Fin 512) :
    (Finset.univ.filter fun n : Fin 100000 => (val_main_v183 (F := Ideal) x3 (ix2 n 0)).toInt = (g.val : ℤ))
      = Cert.Spec.members (Cert.Net.graph x3) g := by
  unfold Cert.Spec.members Cert.Net.graph
  exact Finset.filter_congr fun n _ => by rw [graph_word]

theorem graph_sums (x3) (Y : (⟨S100000x64, .f32⟩ : BufTy).Contents (Elt Ideal)) (g : Fin 512) (k : Fin 64) :
    Host.scatterAdd (F := Ideal) (φ := .f32) scatter_S512x64_S100000x1_S100000x64_1_0_0_1 (val_main_v182 (F := Ideal))
        (val_main_v183 (F := Ideal) x3) Y (ix2 g k)
      = ∑ n ∈ Cert.Spec.members (Cert.Net.graph x3) g, Y (ix2 n k) := by
  rw [IndexedRows.host_scatterAdd_rows scatter_S512x64_S100000x1_S100000x64_1_0_0_1 ⟨rfl, rfl, rfl, rfl⟩,
    val_main_v182_apply, val_main_cst_30_apply, Ideal.ofBits_def, Ideal.ofBits_zero_f32, zero_add, landing_eq_members]

theorem graph_counts (x3) (g : Fin 512) :
    Host.scatterAdd (F := Ideal) (φ := .f32) scatter_S512_S100000x1_S100000_n_0_0_1 (val_main_v186 (F := Ideal))
        (val_main_v187 (F := Ideal) x3) (val_main_v185 (F := Ideal)) (ix1 g)
      = ∑ _n ∈ Cert.Spec.members (Cert.Net.graph x3) g, (1 : EReal) := by
  rw [IndexedRows.host_scatterAdd_vec scatter_S512_S100000x1_S100000_n_0_0_1 ⟨rfl, rfl, rfl⟩,
    val_main_v186_apply, val_main_cst_32_apply, Ideal.ofBits_def, Ideal.ofBits_zero_f32, zero_add,
    show val_main_v187 (F := Ideal) x3 = val_main_v183 (F := Ideal) x3 from rfl, landing_eq_members]
  refine Finset.sum_congr rfl fun n _ => ?_
  rw [val_main_v185_apply, val_main_cst_31_apply, Ideal.ofBits_def, Ideal.ofBits_one_f32]

theorem ref_out (x0 x1 x2 x3 x4 x5 x6 x7 x8 x9 x10 x11 x12 x13 x14 x15) :
    (val_main_v197 (F := Ideal) x0 x1 x2 x3 x4 x5 x6 x7 x8 x9 x10 x11 x12 x13 x14 x15 : S512x10.Idx → EReal)
      = fun i => Cert.Spec.pooled (G := 512)
          (fun n j => (val_main_v181 (F := Ideal) x0 x1 x2 x4 x5 x6 x7 x8 x9 x10 x11 x12 x13 : S100000x64.Idx → EReal) (ix2 n j))
          (Cert.Net.graph x3) (fun j o => x14 (ix2 j o)) (fun o => x15 (ix1 o)) (i 0) (i 1) := by
  funext i
  obtain ⟨g, o, rfl⟩ : ∃ (g : Fin 512) (o : Fin 10), i = ix2 g o := ⟨i 0, i 1, eq_ix2 i⟩
  have eb : idx_main_v195 (idx_main_v196 (ix2 g o)) = ix1 o := eq_ix1 _
  have el : ∀ k : Fin 64, lidx_main_v194 (ix2 g o) k = ix2 g k := fun _ => eq_ix2 _
  have er : ∀ k : Fin 64, ridx_main_v194 (ix2 g o) k = ix2 k o := fun _ => eq_ix2 _
  have ec : ∀ k : Fin 64, idx_main_v191 (idx_main_v192 (ix2 g k)) = ix1 g := fun _ => eq_ix1 _
  rw [val_main_v197_apply, val_main_v194_apply, val_main_v196_apply, val_main_v195_apply, eb, Ideal.addf_def]
  unfold Cert.Spec.pooled
  refine congrArg₂ (· + ·) (Finset.sum_congr rfl fun k _ => ?_) rfl
  rw [el, er, val_main_v193_apply, Ideal.hostDivf_def, val_main_v192_apply, val_main_v191_apply, ec, val_main_v190_apply,
    Ideal.maximumf_def, val_main_v189_apply, val_main_cst_33_apply, Ideal.ofBits_def, Ideal.ofBits_one_f32]
  unfold val_main_v184 val_main_v188
  rw [graph_sums, graph_counts]

end Cert.ReferenceIdeal.RefValue

end
-- ==== Proof.RefLayers.lean ====
import proofs.«419321_j88648124990635_2_alg».proof.Proof.RefEnds
import proofs.«419321_j88648124990635_2_alg».proof.Proof.Gen.ReferenceIdeal.Read

noncomputable section

open scoped BigOperators
open Idealize.ShloMosaic Idealize.ShloMosaic.ValueIdx
open Cert.ReferenceIdeal Cert.ReferenceIdeal.Gen Cert.ReferenceIdeal.Read

namespace Cert.ReferenceIdeal.RefValue

-- a relation's quotient of segment sums whose per-edge rows are the products with its weight is its message
theorem msg_eq (x1 x2) {D : ℕ} (r : Fin 3) (xs : Fin 1600000 → Fin D → EReal) (W : Fin D → Fin 64 → EReal)
    (P : FVec Ideal S1600000x64 .f32) (hP : ∀ e j, P (ix2 e j) = ∑ k, xs e k * W k j) (n : Fin 100000) (j : Fin 64) :
    Cert.HostTerms.ratio (D := 64) scatter_S100000x64_S1600000x1_S1600000x64_1_0_0_1 scatter_S100000_S1600000x1_S1600000_n_0_0_1
        slices_S2x1600000_S1x1600000_1_0 shapeCasts_S1x1600000_S1600000 bcast_S_S1600000 bcast_S1600000_S1600000x1_0
        bcast_S1600000x1_S1600000x64_0_1 bcast_S_S100000x64 bcast_S_S100000 bcast_S100000_S100000x1_0
        bcast_S100000x1_S100000x64_0_1 x1 x2 (BitVec.ofNat 32 r.val) P (ix2 n j)
      = Cert.Spec.message xs W (Cert.Net.msk x2 r) (Cert.Net.dst x1) n j := by
  rw [Cert.HostTerms.ratio_apply scatter_S100000x64_S1600000x1_S1600000x64_1_0_0_1 scatter_S100000_S1600000x1_S1600000_n_0_0_1
    _ _ _ _ _ _ _ _ _ _ _ _ _ ⟨rfl, rfl, rfl, rfl⟩ ⟨rfl, rfl, rfl⟩]
  have hm : ∀ e, (if x2 (ix1 e) = BitVec.ofNat 32 r.val then (1 : EReal) else 0) = Cert.Net.msk x2 r e := fun _ => rfl
  unfold Cert.Spec.message
  simp only [hP, hm]

theorem xs1 (x0 x1 x4 x5 x6 x7) (e : Fin 1600000) (k : Fin 32) :
    val_main_v38 (F := Ideal) x0 x1 x4 x5 x6 x7 (ix2 e k) = Cert.Net.gath x1 (fun n k => val_main_v23 (F := Ideal) x0 x4 x5 x6 x7 (ix2 n k)) e k :=
  Cert.HostTerms.gathered_apply gather_S100000x32_S1600000x1_S1600000x32_1_0_n_n_0_1_132 slices_S2x1600000_S1x1600000_0_0
    shapeCasts_S1x1600000_S1600000 bcast_S_S1600000 bcast_S1600000_S1600000x1_0 _ x1 ⟨rfl, rfl, rfl, rfl, rfl⟩ e k

theorem root1 (x0 x4 x5 x6 x7 x8) (n : Fin 100000) (j : Fin 64) :
    val_main_v28 (F := Ideal) x0 x4 x5 x6 x7 x8 (ix2 n j) = ∑ k : Fin 32, (fun n k => val_main_v23 (F := Ideal) x0 x4 x5 x6 x7 (ix2 n k)) n k * x8 (ix2 k j) := by
  rw [val_main_v28_apply]
  refine Finset.sum_congr rfl fun k _ => ?_
  rw [show lidx_main_v28 (ix2 n j) k = ix2 n k from eq_ix2 _, show ridx_main_v28 (ix2 n j) k = ix2 k j from eq_ix2 _]

theorem bias1 (x10) (n : Fin 100000) (j : Fin 64) : val_main_v30 (F := Ideal) x10 (ix2 n j) = x10 (ix1 j) := by
  rw [val_main_v30_apply, val_main_v29_apply]
  exact congrArg x10 (eq_ix1 _)

theorem msg1_0 (x0 x1 x2 x4 x5 x6 x7 x9) (n : Fin 100000) (j : Fin 64) :
    val_main_v58 (F := Ideal) x0 x1 x2 x4 x5 x6 x7 x9 (ix2 n j)
      = Cert.Spec.message (Cert.Net.gath x1 (fun n k => val_main_v23 (F := Ideal) x0 x4 x5 x6 x7 (ix2 n k))) (fun k j => x9 (ix3 0 k j)) (Cert.Net.msk x2 0) (Cert.Net.dst x1) n j := by
  refine msg_eq x1 x2 0 _ _ (val_main_v44 (F := Ideal) x0 x1 x4 x5 x6 x7 x9) (fun e j => ?_) n j
  rw [val_main_v44_apply]
  refine Finset.sum_congr rfl fun k _ => ?_
  rw [show lidx_main_v44 (ix2 e j) k = ix2 e k from eq_ix2 _, show ridx_main_v44 (ix2 e j) k = ix2 k j from eq_ix2 _, xs1,
    show val_main_v43 (F := Ideal) x9 (ix2 k j) = x9 (ix3 0 k j) from Cert.HostTerms.slice_mat_apply 0 x9 ![0, 0, 0] rfl rfl rfl
      slices_S3x32x64_S1x32x64_0_0_0 shapeCasts_S1x32x64_S32x64 k j]

theorem msg1_1 (x0 x1 x2 x4 x5 x6 x7 x9) (n : Fin 100000) (j : Fin 64) :
    val_main_v79 (F := Ideal) x0 x1 x2 x4 x5 x6 x7 x9 (ix2 n j)
      = Cert.Spec.message (Cert.Net.gath x1 (fun n k => val_main_v23 (F := Ideal) x0 x4 x5 x6 x7 (ix2 n k))) (fun k j => x9 (ix3 1 k j)) (Cert.Net.msk x2 1) (Cert.Net.dst x1) n j := by
  refine msg_eq x1 x2 1 _ _ (val_main_v65 (F := Ideal) x0 x1 x4 x5 x6 x7 x9) (fun e j => ?_) n j
  rw [val_main_v65_apply]
  refine Finset.sum_congr rfl fun k _ => ?_
  rw [show lidx_main_v65 (ix2 e j) k = ix2 e k from eq_ix2 _, show ridx_main_v65 (ix2 e j) k = ix2 k j from eq_ix2 _, xs1,
    show val_main_v64 (F := Ideal) x9 (ix2 k j) = x9 (ix3 1 k j) from Cert.HostTerms.slice_mat_apply 1 x9 ![1, 0, 0] rfl rfl rfl
      slices_S3x32x64_S1x32x64_1_0_0 shapeCasts_S1x32x64_S32x64 k j]

theorem msg1_2 (x0 x1 x2 x4 x5 x6 x7 x9) (n : Fin 100000) (j : Fin 64) :
    val_main_v100 (F := Ideal) x0 x1 x2 x4 x5 x6 x7 x9 (ix2 n j)
      = Cert.Spec.message (Cert.Net.gath x1 (fun n k => val_main_v23 (F := Ideal) x0 x4 x5 x6 x7 (ix2 n k))) (fun k j => x9 (ix3 2 k j)) (Cert.Net.msk x2 2) (Cert.Net.dst x1) n j := by
  refine msg_eq x1 x2 2 _ _ (val_main_v86 (F := Ideal) x0 x1 x4 x5 x6 x7 x9) (fun e j => ?_) n j
  rw [val_main_v86_apply]
  refine Finset.sum_congr rfl fun k _ => ?_
  rw [show lidx_main_v86 (ix2 e j) k = ix2 e k from eq_ix2 _, show ridx_main_v86 (ix2 e j) k = ix2 k j from eq_ix2 _, xs1,
    show val_main_v85 (F := Ideal) x9 (ix2 k j) = x9 (ix3 2 k j) from Cert.HostTerms.slice_mat_apply 2 x9 ![2, 0, 0] rfl rfl rfl
      slices_S3x32x64_S1x32x64_2_0_0 shapeCasts_S1x32x64_S32x64 k j]

theorem ref_layer1 (x0 x1 x2 x4 x5 x6 x7 x8 x9 x10) :
    (fun n j => val_main_v102 (F := Ideal) x0 x1 x2 x4 x5 x6 x7 x8 x9 x10 (ix2 n j)) = Cert.Net.x1 x0 x1 x2 x4 x5 x6 x7 x8 x9 x10 := by
  unfold Cert.Net.x1
  rw [← ref_x0]
  funext n j
  rw [val_main_v102_apply, val_main_v101_apply, val_main_v80_apply, val_main_v59_apply, val_main_v31_apply, root1, bias1, msg1_0, msg1_1, msg1_2,
    show val_main_call1_v0 (F := Ideal) (ix2 n j) = 0 from Ideal.ofBits_zero_f32]
  rfl

theorem xs2 (x0 x1 x2 x4 x5 x6 x7 x8 x9 x10) (e : Fin 1600000) (k : Fin 64) :
    val_main_v117 (F := Ideal) x0 x1 x2 x4 x5 x6 x7 x8 x9 x10 (ix2 e k) = Cert.Net.gath x1 (fun n k => val_main_v102 (F := Ideal) x0 x1 x2 x4 x5 x6 x7 x8 x9 x10 (ix2 n k)) e k :=
  Cert.HostTerms.gathered_apply gather_S100000x64_S1600000x1_S1600000x64_1_0_n_n_0_1_164 slices_S2x1600000_S1x1600000_0_0
    shapeCasts_S1x1600000_S1600000 bcast_S_S1600000 bcast_S1600000_S1600000x1_0 _ x1 ⟨rfl, rfl, rfl, rfl, rfl⟩ e k

theorem root2 (x0 x1 x2 x4 x5 x6 x7 x8 x9 x10 x11) (n : Fin 100000) (j : Fin 64) :
    val_main_v107 (F := Ideal) x0 x1 x2 x4 x5 x6 x7 x8 x9 x10 x11 (ix2 n j) = ∑ k : Fin 64, (fun n k => val_main_v102 (F := Ideal) x0 x1 x2 x4 x5 x6 x7 x8 x9 x10 (ix2 n k)) n k * x11 (ix2 k j) := by
  rw [val_main_v107_apply]
  refine Finset.sum_congr rfl fun k _ => ?_
  rw [show lidx_main_v107 (ix2 n j) k = ix2 n k from eq_ix2 _, show ridx_main_v107 (ix2 n j) k = ix2 k j from eq_ix2 _]

theorem bias2 (x13) (n : Fin 100000) (j : Fin 64) : val_main_v109 (F := Ideal) x13 (ix2 n j) = x13 (ix1 j) := by
  rw [val_main_v109_apply, val_main_v108_apply]
  exact congrArg x13 (eq_ix1 _)

theorem msg2_0 (x0 x1 x2 x4 x5 x6 x7 x8 x9 x10 x12) (n : Fin 100000) (j : Fin 64) :
    val_main_v137 (F := Ideal) x0 x1 x2 x4 x5 x6 x7 x8 x9 x10 x12 (ix2 n j)
      = Cert.Spec.message (Cert.Net.gath x1 (fun n k => val_main_v102 (F := Ideal) x0 x1 x2 x4 x5 x6 x7 x8 x9 x10 (ix2 n k))) (fun k j => x12 (ix3 0 k j)) (Cert.Net.msk x2 0) (Cert.Net.dst x1) n j := by
  refine msg_eq x1 x2 0 _ _ (val_main_v123 (F := Ideal) x0 x1 x2 x4 x5 x6 x7 x8 x9 x10 x12) (fun e j => ?_) n j
  rw [val_main_v123_apply]
  refine Finset.sum_congr rfl fun k _ => ?_
  rw [show lidx_main_v123 (ix2 e j) k = ix2 e k from eq_ix2 _, show ridx_main_v123 (ix2 e j) k = ix2 k j from eq_ix2 _, xs2,
    show val_main_v122 (F := Ideal) x12 (ix2 k j) = x12 (ix3 0 k j) from Cert.HostTerms.slice_mat_apply 0 x12 ![0, 0, 0] rfl rfl rfl
      slices_S3x64x64_S1x64x64_0_0_0 shapeCasts_S1x64x64_S64x64 k j]

theorem msg2_1 (x0 x1 x2 x4 x5 x6 x7 x8 x9 x10 x12) (n : Fin 100000) (j : Fin 64) :
    val_main_v158 (F := Ideal) x0 x1 x2 x4 x5 x6 x7 x8 x9 x10 x12 (ix2 n j)
      = Cert.Spec.message (Cert.Net.gath x1 (fun n k => val_main_v102 (F := Ideal) x0 x1 x2 x4 x5 x6 x7 x8 x9 x10 (ix2 n k))) (fun k j => x12 (ix3 1 k j)) (Cert.Net.msk x2 1) (Cert.Net.dst x1) n j := by
  refine msg_eq x1 x2 1 _ _ (val_main_v144 (F := Ideal) x0 x1 x2 x4 x5 x6 x7 x8 x9 x10 x12) (fun e j => ?_) n j
  rw [val_main_v144_apply]
  refine Finset.sum_congr rfl fun k _ => ?_
  rw [show lidx_main_v144 (ix2 e j) k = ix2 e k from eq_ix2 _, show ridx_main_v144 (ix2 e j) k = ix2 k j from eq_ix2 _, xs2,
    show val_main_v143 (F := Ideal) x12 (ix2 k j) = x12 (ix3 1 k j) from Cert.HostTerms.slice_mat_apply 1 x12 ![1, 0, 0] rfl rfl rfl
      slices_S3x64x64_S1x64x64_1_0_0 shapeCasts_S1x64x64_S64x64 k j]

theorem msg2_2 (x0 x1 x2 x4 x5 x6 x7 x8 x9 x10 x12) (n : Fin 100000) (j : Fin 64) :
    val_main_v179 (F := Ideal) x0 x1 x2 x4 x5 x6 x7 x8 x9 x10 x12 (ix2 n j)
      = Cert.Spec.message (Cert.Net.gath x1 (fun n k => val_main_v102 (F := Ideal) x0 x1 x2 x4 x5 x6 x7 x8 x9 x10 (ix2 n k))) (fun k j => x12 (ix3 2 k j)) (Cert.Net.msk x2 2) (Cert.Net.dst x1) n j := by
  refine msg_eq x1 x2 2 _ _ (val_main_v165 (F := Ideal) x0 x1 x2 x4 x5 x6 x7 x8 x9 x10 x12) (fun e j => ?_) n j
  rw [val_main_v165_apply]
  refine Finset.sum_congr rfl fun k _ => ?_
  rw [show lidx_main_v165 (ix2 e j) k = ix2 e k from eq_ix2 _, show ridx_main_v165 (ix2 e j) k = ix2 k j from eq_ix2 _, xs2,
    show val_main_v164 (F := Ideal) x12 (ix2 k j) = x12 (ix3 2 k j) from Cert.HostTerms.slice_mat_apply 2 x12 ![2, 0, 0] rfl rfl rfl
      slices_S3x64x64_S1x64x64_2_0_0 shapeCasts_S1x64x64_S64x64 k j]

theorem ref_layer2 (x0 x1 x2 x4 x5 x6 x7 x8 x9 x10 x11 x12 x13) :
    (fun n j => val_main_v181 (F := Ideal) x0 x1 x2 x4 x5 x6 x7 x8 x9 x10 x11 x12 x13 (ix2 n j)) = Cert.Net.x2 x0 x1 x2 x4 x5 x6 x7 x8 x9 x10 x11 x12 x13 := by
  unfold Cert.Net.x2
  rw [← ref_layer1]
  funext n j
  rw [val_main_v181_apply, val_main_v180_apply, val_main_v159_apply, val_main_v138_apply, val_main_v110_apply, root2, bias2, msg2_0, msg2_1, msg2_2,
    show val_main_call2_v0 (F := Ideal) (ix2 n j) = 0 from Ideal.ofBits_zero_f32]
  rfl

end Cert.ReferenceIdeal.RefValue

end
-- ==== Proof.RefChain.lean ====
import proofs.«419321_j88648124990635_2_alg».proof.Proof.RefLayers
import proofs.«419321_j88648124990635_2_alg».proof.Proof.Gen.ReferenceIdeal.Read

noncomputable section

open scoped BigOperators
open Idealize.ShloMosaic Idealize.ShloMosaic.ValueIdx Idealize.ShloMosaic.TcCoe Idealize.SL.Sem
open Cert.ReferenceIdeal Cert.ReferenceIdeal.Gen Cert.ReferenceIdeal.Read

namespace Cert.ReferenceIdeal.RefValue

theorem ref_net (x0 x1 x2 x3 x4 x5 x6 x7 x8 x9 x10 x11 x12 x13 x14 x15) :
    (val_main_v197 (F := Ideal) x0 x1 x2 x3 x4 x5 x6 x7 x8 x9 x10 x11 x12 x13 x14 x15 : S512x10.Idx → EReal) = Cert.Net.out x0 x1 x2 x3 x4 x5 x6 x7 x8 x9 x10 x11 x12 x13 x14 x15 := by
  unfold Cert.Net.out
  rw [ref_out, ref_layer2]

theorem ref_value (m : (ℓ : Loc nD τ sig) → Buf (Elt Ideal) ℓ) (c : Dev nD) :
    (Cert.ReferenceIdeal.Value.res_main_v197 (F := Ideal) m c : S512x10.Idx → EReal)
      = Cert.Net.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  (val_main_v197_eq (F := Ideal) m c).trans (ref_net _ _ _ _ _ _ _ _ _ _ _ _ _ _ _ _)

end Cert.ReferenceIdeal.RefValue

end
-- ==== Proof.lean ====
import proofs.«419321_j88648124990635_2_alg».proof.Defs
import proofs.«419321_j88648124990635_2_alg».proof.Proof.Gen.Kernel
import proofs.«419321_j88648124990635_2_alg».proof.Proof.Gen.KernelIdeal
import proofs.«419321_j88648124990635_2_alg».proof.Proof.Gen.ReferenceIdeal
import proofs.«419321_j88648124990635_2_alg».proof.Proof.Gen.Pre_finite_inputs
import proofs.«419321_j88648124990635_2_alg».proof.Proof.Gen.ReferenceIdeal.Run
import proofs.«419321_j88648124990635_2_alg».proof.Proof.Gen.ReferenceIdeal.Read
import proofs.«419321_j88648124990635_2_alg».proof.Proof.KB.RunArgs
import proofs.«419321_j88648124990635_2_alg».proof.Proof.KI.RunArgs
import proofs.«419321_j88648124990635_2_alg».proof.Proof.KI.Chain
import proofs.«419321_j88648124990635_2_alg».proof.Proof.Net
import proofs.«419321_j88648124990635_2_alg».proof.Proof.PreFacts
import proofs.«419321_j88648124990635_2_alg».proof.Proof.RefChain
import Idealize.ShloMosaic.Adequacy
import Idealize.ShloMosaic.Init

noncomputable section

namespace Cert.Proof

open Idealize.ShloMosaic Idealize.ShloMosaic.TcCoe Idealize.SL.Sem

/-- Each program runs to its end without fault, its sixteen arguments unchanged. -/
theorem frame_kernel : Cert.frame_Kernel := fun m ρ _ =>
  (θ_run Cert.Kernel.defs _ _).mono (fun r h c => by
    refine ⟨?_, ?_, ?_, ?_, ?_, ?_, ?_, ?_, ?_, ?_, ?_, ?_, ?_, ?_, ?_, ?_⟩ <;> exact (h c).2 _ (by decide))
    (Cert.Kernel.Hand.run_args (F := Bits) m ρ)

theorem frame_kernelIdeal : Cert.frame_KernelIdeal := fun m ρ _ =>
  (θ_run Cert.KernelIdeal.defs _ _).mono (fun r h c => by
    refine ⟨?_, ?_, ?_, ?_, ?_, ?_, ?_, ?_, ?_, ?_, ?_, ?_, ?_, ?_, ?_, ?_⟩ <;> exact (h c).2 _ (by decide))
    (Cert.KernelIdeal.Hand.run_args (F := Ideal) m ρ)

theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten between the kernel program and its reading at the extended reals. -/
theorem preserves : Cert.preserves_Kernel_KernelIdeal := trivial

/-- Both results are one function of the sixteen argument arrays: the kernels' form of the network equals the reference's form once every float entry is a real number and the two identifier columns index inside their tables, which is what the precondition says. -/
theorem algebraic : Cert.algebraic_KernelIdeal_ReferenceIdeal := by
  intro m ρ m' ρ' hpre hagree
  refine ⟨fun c => Cert.Net.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · refine (θ_run Cert.KernelIdeal.defs _ _).mono (fun r h c => ?_) (Cert.KernelIdeal.Hand.run_args (F := Ideal) m ρ)
    obtain ⟨r4, r5, r6, r7, r8, r9, r10, r11, r12, r13, -, -, k0, k1⟩ :=
      Cert.PreFacts.of_pre _ _ _ _ _ _ _ _ _ _ _ _ _ _ _ _ (hpre c)
    refine ⟨((h c).1 _ (Cert.KernelIdeal.Hand.mem_uc Cert.KernelIdeal.main_v146 (by decide))).trans
        ((Cert.KernelIdeal.Val.kernel_value m ρ c k0 k1).trans
          (Cert.Net.outK_eq_out _ _ _ _ _ _ _ _ _ _ _ _ _ _ _ _ r4 r5 r6 r7 r8 r9 r10 r11 r12 r13)),
      ?_, ?_, ?_, ?_, ?_, ?_, ?_, ?_, ?_, ?_, ?_, ?_, ?_, ?_, ?_, ?_⟩ <;> exact (h c).2 _ (by decide)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15⟩ := hagree c
    rw [Cert.ReferenceIdeal.RefValue.ref_value m' c, e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
